-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x10 : Shape := ⟨2, ![32, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S5x32 : S_.BroadcastsInDim S5x32 (![] : Fin 0 → Fin S5x32.rank)
  reducesTo_S5x32_S_d0_1 : S5x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 4294867296#32
  let main_v76 : IVec S1600000 32 := broadcastInDim S1600000 ![] bcast_S_S1600000 main_c_28
  let main_v77 : IVec S1600000 1 := cmpi .sge main_v75 main_v76
  let main_v78 : IVec S1x1600000 32 := (extractStridedSlice S1x1600000 ![0, 0] · slices_S2x1600000_S1x1600000_0_0) main_arg1
  let main_v79 : IVec S1600000 32 := shapeCast S1600000 main_v78 shapeCasts_S1x1600000_S1600000
  let main_c_29 : IVec S_ 32 := constantI S_ 32 100000#32
  let main_v80 : IVec S1600000 32 := broadcastInDim S1600000 ![] bcast_S_S1600000 main_c_29
  let main_v81 : IVec S1600000 1 := cmpi .slt main_v79 main_v80
  let main_v82 : IVec S1600000 1 := andi main_v77 main_v81
  let main_c_30 : IVec S_ 1 := constantI S_ 1 1#1
  let main_v83 : IVec S_ 1 := (fun x v => Host.reduce IntOp.andi x v reducesTo_S1600000_S_d0 h_S_) main_v82 main_c_30
  let main_v84 : IVec S_ 1 := andi main_v73 main_v83
  main_v84

def fn_part3 {F : FTy → Type} [FloatOps F] (main_arg1 : IVec S2x1600000 32) (main_arg13 : FVec F S32x32 .f32) (main_arg14 : FVec F S32 .f32) (main_arg15 : FVec F S32x10 .f32) (main_arg16 : FVec F S10 .f32) (main_v48 : IVec S_ 1) (main_v49 : FVec F S5x32 .f32) (main_v50 : FVec F S5x32 .f32) : IVec S_ 1 :=
  let main_v51 : IVec S5x32 1 := cmpf .olt main_v49 main_v50
  let main_c_19 : IVec S_ 1 := constantI S_ 1 1#1
  let main_v52 : IVec S_ 1 := (fun x v => Host.reduce IntOp.andi x v reducesTo_S5x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x10 .f32 := Host.absf main_arg15
  let main_cst_24 : FVec F S_ .f32 := constant S_ .f32 0x7F800000#32
  let main_v65 : FVec F S32x10 .f32 := broadcastInDim S32x10 ![] bcast_S_S32x10 main_cst_24
  let main_v66 : IVec S32x10 1 := cmpf .olt main_v64 main_v65
  let main_c_25 : IVec S_ 1 := constantI S_ 1 1#1
  let main_v67 : IVec S_ 1 := (fun x v => Host.reduce IntOp.andi x v reducesTo_S32x10_S_d0_1 h_S_) main_v66 main_c_25
  fn_part4 (F := F) main_arg1 main_arg16 main_v63 main_v67

def fn_part2 {F : FTy → Type} [FloatOps F] (main_arg1 : IVec S2x1600000 32) (main_arg9 : FVec F S4x32x32 .f32) (main_arg10 : FVec F S4x32 .f32) (main_arg11 : FVec F S5x32 .f32) (main_arg12 : FVec F S5x32 .f32) (main_arg13 : FVec F S32x32 .f32) (main_arg14 : FVec F S32 .f32) (main_arg15 : FVec F S32x10 .f32) (main_arg16 : FVec F S10 .f32) (main_v33 : IVec S_ 1) : IVec S_ 1 :=
  let main_v34 : FVec F S4x32x32 .f32 := Host.absf main_arg9
  let main_cst_12 : FVec F S_ .f32 := constant S_ .f32 0x7F800000#32
  let main_v35 : FVec F S4x32x32 .f32 := broadcastInDim S4x32x32 ![] bcast_S_S4x32x32 main_cst_12
  let main_v36 : IVec S4x32x32 1 := cmpf .olt main_v34 main_v35
  let main_c_13 : IVec S_ 1 := constantI S_ 1 1#1
  let main_v37 : IVec S_ 1 := (fun x v => Host.reduce IntOp.andi x v reducesTo_S4x32x32_S_d0_1_2 h_S_) main_v36 main_c_13
  let main_v38 : IVec S_ 1 := andi main_v33 main_v37
  let main_v39 : FVec F S4x32 .f32 := Host.absf main_arg10
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S5x32 .f32 := Host.absf main_arg11
  let main_cst_16 : FVec F S_ .f32 := constant S_ .f32 0x7F800000#32
  let main_v45 : FVec F S5x32 .f32 := broadcastInDim S5x32 ![] bcast_S_S5x32 main_cst_16
  let main_v46 : IVec S5x32 1 := cmpf .olt main_v44 main_v45
  let main_c_17 : IVec S_ 1 := constantI S_ 1 1#1
  let main_v47 : IVec S_ 1 := (fun x v => Host.reduce IntOp.andi x v reducesTo_S5x32_S_d0_1 h_S_) main_v46 main_c_17
  let main_v48 : IVec S_ 1 := andi main_v43 main_v47
  let main_v49 : FVec F S5x32 .f32 := Host.absf main_arg12
  let main_cst_18 : FVec F S_ .f32 := constant S_ .f32 0x7F800000#32
  let main_v50 : FVec F S5x32 .f32 := broadcastInDim S5x32 ![] bcast_S_S5x32 main_cst_18
  fn_part3 (F := F) main_arg1 main_arg13 main_arg14 main_arg15 main_arg16 main_v48 main_v49 main_v50

def fn_part1 {F : FTy → Type} [FloatOps F] (main_arg1 : IVec S2x1600000 32) (main_arg6 : FVec F S32 .f32) (main_arg7 : FVec F S4x32x32 .f32) (main_arg8 : FVec F S4x32 .f32) (main_arg9 : FVec F S4x32x32 .f32) (main_arg10 : FVec F S4x32 .f32) (main_arg11 : FVec F S5x32 .f32) (main_arg12 : FVec F S5x32 .f32) (main_arg13 : FVec F S32x32 .f32) (main_arg14 : FVec F S32 .f32) (main_arg15 : FVec F S32x10 .f32) (main_arg16 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32x32 .f32 := Host.absf main_arg7
  let main_cst_8 : FVec F S_ .f32 := constant S_ .f32 0x7F800000#32
  let main_v25 : FVec F S4x32x32 .f32 := broadcastInDim S4x32x32 ![] bcast_S_S4x32x32 main_cst_8
  let main_v26 : IVec S4x32x32 1 := cmpf .olt main_v24 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v23 main_v27
  let main_v29 : FVec F S4x32 .f32 := Host.absf main_arg8
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S64x32 .f32) (main_arg4 : FVec F S32 .f32) (main_arg5 : FVec F S32x32 .f32) (main_arg6 : FVec F S32 .f32) (main_arg7 : FVec F S4x32x32 .f32) (main_arg8 : FVec F S4x32 .f32) (main_arg9 : FVec F S4x32x32 .f32) (main_arg10 : FVec F S4x32 .f32) (main_arg11 : FVec F S5x32 .f32) (main_arg12 : FVec F S5x32 .f32) (main_arg13 : FVec F S32x32 .f32) (main_arg14 : FVec F S32 .f32) (main_arg15 : FVec F S32x10 .f32) (main_arg16 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1x32 : Shape := ⟨2, ![1, 32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x32 : Shape := ⟨2, ![100000, 32]⟩
abbrev S10000x64 : Shape := ⟨2, ![10000, 64]⟩
abbrev S10000x32 : Shape := ⟨2, ![10000, 32]⟩
abbrev S1x32x32 : Shape := ⟨3, ![1, 32, 32]⟩
abbrev S1600000x32 : Shape := ⟨2, ![1600000, 32]⟩
abbrev S256 : Shape := ⟨1, ![256]⟩
abbrev S100000x1 : Shape := ⟨2, ![100000, 1]⟩
abbrev S256x32 : Shape := ⟨2, ![256, 32]⟩
abbrev S256x1 : Shape := ⟨2, ![256, 1]⟩
abbrev S1x10 : Shape := ⟨2, ![1, 10]⟩
abbrev S256x10 : Shape := ⟨2, ![256, 10]⟩

abbrev nBuf : Space → Nat
  | .hbm => 407
  | .vmem => 96
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S5x32, .f32⟩
  | 12 => ⟨S5x32, .f32⟩
  | 13 => ⟨S32x32, .f32⟩
  | 14 => ⟨S32, .f32⟩
  | 15 => ⟨S32x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S1x32, .f32⟩
  | 22 => ⟨S32, .f32⟩
  | 23 => ⟨S1x32, .f32⟩
  | 24 => ⟨S32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1, .i32⟩
  | 34 => ⟨S_, .i32⟩
  | 35 => ⟨S1600000x1, .i32⟩
  | 36 => ⟨S1600000x1, .i1⟩
  | 37 => ⟨S1x1, .i32⟩
  | 38 => ⟨S1600000x1, .i32⟩
  | 39 => ⟨S1600000x1, .i1⟩
  | 40 => ⟨S1600000x1, .i1⟩
  | 41 => ⟨S_, .i1⟩
  | 42 => ⟨S1600000, .i1⟩
  | 43 => ⟨S1600000x64, .f32⟩
  | 44 => ⟨S1600000x64, .i1⟩
  | 45 => ⟨S_, .f32⟩
  | 46 => ⟨S1600000x64, .f32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S1x32, .f32⟩
  | 53 => ⟨S1x32, .f32⟩
  | 54 => ⟨S100000x32, .f32⟩
  | 55 => ⟨S_, .f32⟩
  | 56 => ⟨S32, .f32⟩
  | 57 => ⟨S1x32, .f32⟩
  | 58 => ⟨S_, .f32⟩
  | 59 => ⟨S1x32, .f32⟩
  | 60 => ⟨S1x32, .f32⟩
  | 61 => ⟨S_, .i32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .f32⟩
  | 68 => ⟨S100000x32, .f32⟩
  | 69 => ⟨S100000x32, .f32⟩
  | 70 => ⟨S100000x32, .f32⟩
  | 71 => ⟨S_, .f32⟩
  | 72 => ⟨S_, .f32⟩
  | 73 => ⟨S_, .f32⟩
  | 74 => ⟨S_, .f32⟩
  | 75 => ⟨S32, .f32⟩
  | 76 => ⟨S1x32, .f32⟩
  | 77 => ⟨S1x32, .f32⟩
  | 78 => ⟨S1x32, .f32⟩
  | 79 => ⟨S_, .f32⟩
  | 80 => ⟨S_, .i1⟩
  | 81 => ⟨S_, .f32⟩
  | 82 => ⟨S_, .f32⟩
  | 83 => ⟨S1x32, .f32⟩
  | 84 => ⟨S1x32, .f32⟩
  | 85 => ⟨S1x32, .f32⟩
  | 86 => ⟨S1x32, .f32⟩
  | 87 => ⟨S100000x32, .f32⟩
  | 88 => ⟨S1x32x32, .f32⟩
  | 89 => ⟨S32x32, .f32⟩
  | 90 => ⟨S1x32, .f32⟩
  | 91 => ⟨S32, .f32⟩
  | 92 => ⟨S1x32x32, .f32⟩
  | 93 => ⟨S32x32, .f32⟩
  | 94 => ⟨S1x32, .f32⟩
  | 95 => ⟨S32, .f32⟩
  | 96 => ⟨S1x32, .f32⟩
  | 97 => ⟨S32, .f32⟩
  | 98 => ⟨S1x32, .f32⟩
  | 99 => ⟨S32, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1, .i32⟩
  | 109 => ⟨S_, .i32⟩
  | 110 => ⟨S1600000x1, .i32⟩
  | 111 => ⟨S1600000x1, .i1⟩
  | 112 => ⟨S1x1, .i32⟩
  | 113 => ⟨S1600000x1, .i32⟩
  | 114 => ⟨S1600000x1, .i1⟩
  | 115 => ⟨S1600000x1, .i1⟩
  | 116 => ⟨S_, .i1⟩
  | 117 => ⟨S1600000, .i1⟩
  | 118 => ⟨S1600000x32, .f32⟩
  | 119 => ⟨S1600000x32, .i1⟩
  | 120 => ⟨S_, .f32⟩
  | 121 => ⟨S1600000x32, .f32⟩
  | 122 => ⟨S1600000x32, .f32⟩
  | 123 => ⟨S_, .f32⟩
  | 124 => ⟨S100000x32, .f32⟩
  | 125 => ⟨S1600000x1, .i32⟩
  | 126 => ⟨S100000x32, .f32⟩
  | 127 => ⟨S1x32, .f32⟩
  | _ => ⟨S100000x64, .f32⟩

abbrev hbmTy0_1 (i : Nat) : BufTy := match i % 128 with
  | 0 => ⟨S1x32, .f32⟩
  | 1 => ⟨S100000x32, .f32⟩
  | 2 => ⟨S_, .f32⟩
  | 3 => ⟨S32, .f32⟩
  | 4 => ⟨S1x32, .f32⟩
  | 5 => ⟨S_, .f32⟩
  | 6 => ⟨S1x32, .f32⟩
  | 7 => ⟨S1x32, .f32⟩
  | 8 => ⟨S_, .i32⟩
  | 9 => ⟨S_, .f32⟩
  | 10 => ⟨S32, .f32⟩
  | 11 => ⟨S1x32, .f32⟩
  | 12 => ⟨S_, .f32⟩
  | 13 => ⟨S1x32, .f32⟩
  | 14 => ⟨S1x32, .f32⟩
  | 15 => ⟨S100000x32, .f32⟩
  | 16 => ⟨S100000x32, .f32⟩
  | 17 => ⟨S100000x32, .f32⟩
  | 18 => ⟨S_, .f32⟩
  | 19 => ⟨S_, .f32⟩
  | 20 => ⟨S_, .f32⟩
  | 21 => ⟨S_, .f32⟩
  | 22 => ⟨S32, .f32⟩
  | 23 => ⟨S1x32, .f32⟩
  | 24 => ⟨S1x32, .f32⟩
  | 25 => ⟨S1x32, .f32⟩
  | 26 => ⟨S_, .f32⟩
  | 27 => ⟨S_, .i1⟩
  | 28 => ⟨S_, .f32⟩
  | 29 => ⟨S_, .f32⟩
  | 30 => ⟨S1x32, .f32⟩
  | 31 => ⟨S1x32, .f32⟩
  | 32 => ⟨S1x32, .f32⟩
  | 33 => ⟨S1x32, .f32⟩
  | 34 => ⟨S100000x32, .f32⟩
  | 35 => ⟨S1x32x32, .f32⟩
  | 36 => ⟨S32x32, .f32⟩
  | 37 => ⟨S1x32, .f32⟩
  | 38 => ⟨S32, .f32⟩
  | 39 => ⟨S1x32x32, .f32⟩
  | 40 => ⟨S32x32, .f32⟩
  | 41 => ⟨S1x32, .f32⟩
  | 42 => ⟨S32, .f32⟩
  | 43 => ⟨S1x32, .f32⟩
  | 44 => ⟨S32, .f32⟩
  | 45 => ⟨S1x32, .f32⟩
  | 46 => ⟨S32, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1, .i32⟩
  | 56 => ⟨S_, .i32⟩
  | 57 => ⟨S1600000x1, .i32⟩
  | 58 => ⟨S1600000x1, .i1⟩
  | 59 => ⟨S1x1, .i32⟩
  | 60 => ⟨S1600000x1, .i32⟩
  | 61 => ⟨S1600000x1, .i1⟩
  | 62 => ⟨S1600000x1, .i1⟩
  | 63 => ⟨S_, .i1⟩
  | 64 => ⟨S1600000, .i1⟩
  | 65 => ⟨S1600000x32, .f32⟩
  | 66 => ⟨S1600000x32, .i1⟩
  | 67 => ⟨S_, .f32⟩
  | 68 => ⟨S1600000x32, .f32⟩
  | 69 => ⟨S1600000x32, .f32⟩
  | 70 => ⟨S_, .f32⟩
  | 71 => ⟨S100000x32, .f32⟩
  | 72 => ⟨S1600000x1, .i32⟩
  | 73 => ⟨S100000x32, .f32⟩
  | 74 => ⟨S1x32, .f32⟩
  | 75 => ⟨S1x32, .f32⟩
  | 76 => ⟨S100000x32, .f32⟩
  | 77 => ⟨S_, .f32⟩
  | 78 => ⟨S32, .f32⟩
  | 79 => ⟨S1x32, .f32⟩
  | 80 => ⟨S_, .f32⟩
  | 81 => ⟨S1x32, .f32⟩
  | 82 => ⟨S1x32, .f32⟩
  | 83 => ⟨S_, .i32⟩
  | 84 => ⟨S_, .f32⟩
  | 85 => ⟨S32, .f32⟩
  | 86 => ⟨S1x32, .f32⟩
  | 87 => ⟨S_, .f32⟩
  | 88 => ⟨S1x32, .f32⟩
  | 89 => ⟨S1x32, .f32⟩
  | 90 => ⟨S100000x32, .f32⟩
  | 91 => ⟨S100000x32, .f32⟩
  | 92 => ⟨S100000x32, .f32⟩
  | 93 => ⟨S_, .f32⟩
  | 94 => ⟨S_, .f32⟩
  | 95 => ⟨S_, .f32⟩
  | 96 => ⟨S_, .f32⟩
  | 97 => ⟨S32, .f32⟩
  | 98 => ⟨S1x32, .f32⟩
  | 99 => ⟨S1x32, .f32⟩
  | 100 => ⟨S1x32, .f32⟩
  | 101 => ⟨S_, .f32⟩
  | 102 => ⟨S_, .i1⟩
  | 103 => ⟨S_, .f32⟩
  | 104 => ⟨S_, .f32⟩
  | 105 => ⟨S1x32, .f32⟩
  | 106 => ⟨S1x32, .f32⟩
  | 107 => ⟨S1x32, .f32⟩
  | 108 => ⟨S1x32, .f32⟩
  | 109 => ⟨S100000x32, .f32⟩
  | 110 => ⟨S1x32x32, .f32⟩
  | 111 => ⟨S32x32, .f32⟩
  | 112 => ⟨S1x32, .f32⟩
  | 113 => ⟨S32, .f32⟩
  | 114 => ⟨S1x32x32, .f32⟩
  | 115 => ⟨S32x32, .f32⟩
  | 116 => ⟨S1x32, .f32⟩
  | 117 => ⟨S32, .f32⟩
  | 118 => ⟨S1x32, .f32⟩
  | 119 => ⟨S32, .f32⟩
  | 120 => ⟨S1x32, .f32⟩
  | 121 => ⟨S32, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_2 (i : Nat) : BufTy := match i % 128 with
  | 0 => ⟨S1600000, .i32⟩
  | 1 => ⟨S1600000x1, .i32⟩
  | 2 => ⟨S1, .i32⟩
  | 3 => ⟨S_, .i32⟩
  | 4 => ⟨S1600000x1, .i32⟩
  | 5 => ⟨S1600000x1, .i1⟩
  | 6 => ⟨S1x1, .i32⟩
  | 7 => ⟨S1600000x1, .i32⟩
  | 8 => ⟨S1600000x1, .i1⟩
  | 9 => ⟨S1600000x1, .i1⟩
  | 10 => ⟨S_, .i1⟩
  | 11 => ⟨S1600000, .i1⟩
  | 12 => ⟨S1600000x32, .f32⟩
  | 13 => ⟨S1600000x32, .i1⟩
  | 14 => ⟨S_, .f32⟩
  | 15 => ⟨S1600000x32, .f32⟩
  | 16 => ⟨S1600000x32, .f32⟩
  | 17 => ⟨S_, .f32⟩
  | 18 => ⟨S100000x32, .f32⟩
  | 19 => ⟨S1600000x1, .i32⟩
  | 20 => ⟨S100000x32, .f32⟩
  | 21 => ⟨S1x32, .f32⟩
  | 22 => ⟨S1x32, .f32⟩
  | 23 => ⟨S100000x32, .f32⟩
  | 24 => ⟨S_, .f32⟩
  | 25 => ⟨S32, .f32⟩
  | 26 => ⟨S1x32, .f32⟩
  | 27 => ⟨S_, .f32⟩
  | 28 => ⟨S1x32, .f32⟩
  | 29 => ⟨S1x32, .f32⟩
  | 30 => ⟨S_, .i32⟩
  | 31 => ⟨S_, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S100000x32, .f32⟩
  | 38 => ⟨S100000x32, .f32⟩
  | 39 => ⟨S100000x32, .f32⟩
  | 40 => ⟨S_, .f32⟩
  | 41 => ⟨S_, .f32⟩
  | 42 => ⟨S_, .f32⟩
  | 43 => ⟨S_, .f32⟩
  | 44 => ⟨S32, .f32⟩
  | 45 => ⟨S1x32, .f32⟩
  | 46 => ⟨S1x32, .f32⟩
  | 47 => ⟨S1x32, .f32⟩
  | 48 => ⟨S_, .f32⟩
  | 49 => ⟨S_, .i1⟩
  | 50 => ⟨S_, .f32⟩
  | 51 => ⟨S_, .f32⟩
  | 52 => ⟨S1x32, .f32⟩
  | 53 => ⟨S1x32, .f32⟩
  | 54 => ⟨S1x32, .f32⟩
  | 55 => ⟨S1x32, .f32⟩
  | 56 => ⟨S100000x32, .f32⟩
  | 57 => ⟨S1x32x32, .f32⟩
  | 58 => ⟨S32x32, .f32⟩
  | 59 => ⟨S1x32, .f32⟩
  | 60 => ⟨S32, .f32⟩
  | 61 => ⟨S1x32x32, .f32⟩
  | 62 => ⟨S32x32, .f32⟩
  | 63 => ⟨S1x32, .f32⟩
  | 64 => ⟨S32, .f32⟩
  | 65 => ⟨S1x32, .f32⟩
  | 66 => ⟨S32, .f32⟩
  | 67 => ⟨S1x32, .f32⟩
  | 68 => ⟨S32, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1, .i32⟩
  | 78 => ⟨S_, .i32⟩
  | 79 => ⟨S1600000x1, .i32⟩
  | 80 => ⟨S1600000x1, .i1⟩
  | 81 => ⟨S1x1, .i32⟩
  | 82 => ⟨S1600000x1, .i32⟩
  | 83 => ⟨S1600000x1, .i1⟩
  | 84 => ⟨S1600000x1, .i1⟩
  | 85 => ⟨S_, .i1⟩
  | 86 => ⟨S1600000, .i1⟩
  | 87 => ⟨S1600000x32, .f32⟩
  | 88 => ⟨S1600000x32, .i1⟩
  | 89 => ⟨S_, .f32⟩
  | 90 => ⟨S1600000x32, .f32⟩
  | 91 => ⟨S1600000x32, .f32⟩
  | 92 => ⟨S_, .f32⟩
  | 93 => ⟨S100000x32, .f32⟩
  | 94 => ⟨S1600000x1, .i32⟩
  | 95 => ⟨S100000x32, .f32⟩
  | 96 => ⟨S1x32, .f32⟩
  | 97 => ⟨S1x32, .f32⟩
  | 98 => ⟨S100000x32, .f32⟩
  | 99 => ⟨S_, .f32⟩
  | 100 => ⟨S32, .f32⟩
  | 101 => ⟨S1x32, .f32⟩
  | 102 => ⟨S_, .f32⟩
  | 103 => ⟨S1x32, .f32⟩
  | 104 => ⟨S1x32, .f32⟩
  | 105 => ⟨S_, .i32⟩
  | 106 => ⟨S_, .f32⟩
  | 107 => ⟨S32, .f32⟩
  | 108 => ⟨S1x32, .f32⟩
  | 109 => ⟨S_, .f32⟩
  | 110 => ⟨S1x32, .f32⟩
  | 111 => ⟨S1x32, .f32⟩
  | 112 => ⟨S100000x32, .f32⟩
  | 113 => ⟨S100000x32, .f32⟩
  | 114 => ⟨S100000x32, .f32⟩
  | 115 => ⟨S_, .f32⟩
  | 116 => ⟨S_, .f32⟩
  | 117 => ⟨S_, .f32⟩
  | 118 => ⟨S_, .f32⟩
  | 119 => ⟨S32, .f32⟩
  | 120 => ⟨S1x32, .f32⟩
  | 121 => ⟨S1x32, .f32⟩
  | 122 => ⟨S1x32, .f32⟩
  | 123 => ⟨S_, .f32⟩
  | 124 => ⟨S_, .i1⟩
  | 125 => ⟨S_, .f32⟩
  | 126 => ⟨S_, .f32⟩
  | 127 => ⟨S1x32, .f32⟩
  | _ => ⟨S100000x64, .f32⟩

abbrev hbmTy0_3 (i : Nat) : BufTy := match i % 128 with
  | 0 => ⟨S1x32, .f32⟩
  | 1 => ⟨S1x32, .f32⟩
  | 2 => ⟨S1x32, .f32⟩
  | 3 => ⟨S100000x32, .f32⟩
  | 4 => ⟨S_, .f32⟩
  | 5 => ⟨S100000, .f32⟩
  | 6 => ⟨S_, .f32⟩
  | 7 => ⟨S256, .f32⟩
  | 8 => ⟨S100000x1, .i32⟩
  | 9 => ⟨S256, .f32⟩
  | 10 => ⟨S_, .f32⟩
  | 11 => ⟨S256x32, .f32⟩
  | 12 => ⟨S100000x1, .i32⟩
  | 13 => ⟨S256x32, .f32⟩
  | 14 => ⟨S_, .f32⟩
  | 15 => ⟨S256, .f32⟩
  | 16 => ⟨S256, .f32⟩
  | 17 => ⟨S256x1, .f32⟩
  | 18 => ⟨S256x32, .f32⟩
  | 19 => ⟨S256x32, .f32⟩
  | 20 => ⟨S1x32, .f32⟩
  | 21 => ⟨S1x10, .f32⟩
  | 22 => ⟨S256x10, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S32x32, .f32⟩
  | .local _ .vmem, ⟨41, _⟩ => ⟨S1x32, .f32⟩
  | .local _ .vmem, ⟨42, _⟩ => ⟨S32x32, .f32⟩
  | .local _ .vmem, ⟨43, _⟩ => ⟨S1x32, .f32⟩
  | .local _ .vmem, ⟨44, _⟩ => ⟨S10000x32, .f32⟩
  | .local _ .vmem, ⟨45, _⟩ => ⟨S10000x32, .f32⟩
  | .local _ .vmem, ⟨46, _⟩ => ⟨S10000x32, .f32⟩
  | .local _ .vmem, ⟨47, _⟩ => ⟨S10000x32, .f32⟩
  | .local _ .vmem, ⟨48, _⟩ => ⟨S1x32, .f32⟩
  | .local _ .vmem, ⟨49, _⟩ => ⟨S1x32, .f32⟩
  | .local _ .vmem, ⟨50, _⟩ => ⟨S1x32, .f32⟩
  | .local _ .vmem, ⟨51, _⟩ => ⟨S1x32, .f32⟩
  | .local _ .vmem, ⟨52, _⟩ => ⟨S10000x32, .f32⟩
  | .local _ .vmem, ⟨53, _⟩ => ⟨S10000x32, .f32⟩
  | .local _ .vmem, ⟨54, _⟩ => ⟨S10000x32, .f32⟩
  | .local _ .vmem, ⟨55, _⟩ => ⟨S10000x32, .f32⟩
  | .local _ .vmem, ⟨56, _⟩ => ⟨S10000x32, .f32⟩
  | .local _ .vmem, ⟨57, _⟩ => ⟨S10000x32, .f32⟩
  | .local _ .vmem, ⟨58, _⟩ => ⟨S32x32, .f32⟩
  | .local _ .vmem, ⟨59, _⟩ => ⟨S1x32, .f32⟩
  | .local _ .vmem, ⟨60, _⟩ => ⟨S32x32, .f32⟩
  | .local _ .vmem, ⟨61, _⟩ => ⟨S1x32, .f32⟩
  | .local _ .vmem, ⟨62, _⟩ => ⟨S10000x32, .f32⟩
  | .local _ .vmem, ⟨63, _⟩ => ⟨S10000x32, .f32⟩
  | .local _ .vmem, ⟨64, _⟩ => ⟨S10000x32, .f32⟩
  | .local _ .vmem, ⟨65, _⟩ => ⟨S10000x32, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S1x32, .f32⟩
  | .local _ .vmem, ⟨70, _⟩ => ⟨S10000x32, .f32⟩
  | .local _ .vmem, ⟨71, _⟩ => ⟨S10000x32, .f32⟩
  | .local _ .vmem, ⟨72, _⟩ => ⟨S10000x32, .f32⟩
  | .local _ .vmem, ⟨73, _⟩ => ⟨S10000x32, .f32⟩
  | .local _ .vmem, ⟨74, _⟩ => ⟨S10000x32, .f32⟩
  | .local _ .vmem, ⟨75, _⟩ => ⟨S10000x32, .f32⟩
  | .local _ .vmem, ⟨76, _⟩ => ⟨S32x32, .f32⟩
  | .local _ .vmem, ⟨77, _⟩ => ⟨S1x32, .f32⟩
  | .local _ .vmem, ⟨78, _⟩ => ⟨S32x32, .f32⟩
  | .local _ .vmem, ⟨79, _⟩ => ⟨S1x32, .f32⟩
  | .local _ .vmem, ⟨80, _⟩ => ⟨S10000x32, .f32⟩
  | .local _ .vmem, ⟨81, _⟩ => ⟨S10000x32, .f32⟩
  | .local _ .vmem, ⟨82, _⟩ => ⟨S10000x32, .f32⟩
  | .local _ .vmem, ⟨83, _⟩ => ⟨S10000x32, .f32⟩
  | .local _ .vmem, ⟨84, _⟩ => ⟨S1x32, .f32⟩
  | .local _ .vmem, ⟨85, _⟩ => ⟨S1x32, .f32⟩
  | .local _ .vmem, ⟨86, _⟩ => ⟨S1x32, .f32⟩
  | .local _ .vmem, ⟨87, _⟩ => ⟨S1x32, .f32⟩
  | .local _ .vmem, ⟨88, _⟩ => ⟨S10000x32, .f32⟩
  | .local _ .vmem, ⟨89, _⟩ => ⟨S10000x32, .f32⟩
  | .local _ .vmem, ⟨90, _⟩ => ⟨S256x32, .f32⟩
  | .local _ .vmem, ⟨91, _⟩ => ⟨S32x32, .f32⟩
  | .local _ .vmem, ⟨92, _⟩ => ⟨S1x32, .f32⟩
  | .local _ .vmem, ⟨93, _⟩ => ⟨S32x10, .f32⟩
  | .local _ .vmem, ⟨94, _⟩ => ⟨S1x10, .f32⟩
  | .local _ .vmem, ⟨95, _⟩ => ⟨S256x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_c : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v35 : Ref sig .tc := ⟨.hbm, 122, rfl⟩
abbrev main_cst_2 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_cst_3 : Ref sig .tc := ⟨.hbm, 130, rfl⟩
abbrev main_v42 : Ref sig .tc := ⟨.hbm, 131, rfl⟩
abbrev main_v43 : Ref sig .tc := ⟨.hbm, 132, rfl⟩
abbrev main_cst_4 : Ref sig .tc := ⟨.hbm, 133, rfl⟩
abbrev main_v44 : Ref sig .tc := ⟨.hbm, 134, rfl⟩
abbrev main_v45 : Ref sig .tc := ⟨.hbm, 135, rfl⟩
abbrev main_c_5 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_cst_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_v7 : Ref sig .tc := ⟨.hbm, 146, rfl⟩
abbrev main_call3_cst_1 : Ref sig .tc := ⟨.hbm, 147, rfl⟩
abbrev main_call3_v8 : Ref sig .tc := ⟨.hbm, 148, rfl⟩
abbrev main_call3_cst_2 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_v12 : Ref sig .tc := ⟨.hbm, 153, rfl⟩
abbrev main_call3_cst_3 : Ref sig .tc := ⟨.hbm, 154, rfl⟩
abbrev main_call3_v13 : Ref sig .tc := ⟨.hbm, 155, rfl⟩
abbrev main_call3_cst_4 : Ref sig .tc := ⟨.hbm, 156, rfl⟩
abbrev main_call3_call0_v0 : Ref sig .tc := ⟨.hbm, 157, rfl⟩
abbrev main_call3_call0_v1 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v62 : Ref sig .tc := ⟨.hbm, 197, rfl⟩
abbrev main_cst_6 : Ref sig .tc := ⟨.hbm, 198, rfl⟩
abbrev main_v63 : Ref sig .tc := ⟨.hbm, 199, rfl⟩
abbrev main_v64 : Ref sig .tc := ⟨.hbm, 200, rfl⟩
abbrev main_v65 : Ref sig .tc := ⟨.hbm, 201, rfl⟩
abbrev main_v66 : Ref sig .tc := ⟨.hbm, 202, rfl⟩
abbrev main_v67 : Ref sig .tc := ⟨.hbm, 203, rfl⟩
abbrev main_v68 : Ref sig .tc := ⟨.hbm, 204, rfl⟩
abbrev main_cst_7 : Ref sig .tc := ⟨.hbm, 205, rfl⟩
abbrev main_v69 : Ref sig .tc := ⟨.hbm, 206, rfl⟩
abbrev main_v70 : Ref sig .tc := ⟨.hbm, 207, rfl⟩
abbrev main_cst_8 : Ref sig .tc := ⟨.hbm, 208, rfl⟩
abbrev main_v71 : Ref sig .tc := ⟨.hbm, 209, rfl⟩
abbrev main_v72 : Ref sig .tc := ⟨.hbm, 210, rfl⟩
abbrev main_c_9 : Ref sig .tc := ⟨.hbm, 211, rfl⟩
abbrev main_call5_cst : Ref sig .tc := ⟨.hbm, 212, rfl⟩
abbrev main_call5_v0 : Ref sig .tc := ⟨.hbm, 213, rfl⟩
abbrev main_call5_v1 : Ref sig .tc := ⟨.hbm, 214, rfl⟩
abbrev main_call5_cst_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_v6 : Ref sig .tc := ⟨.hbm, 220, rfl⟩
abbrev main_call5_v7 : Ref sig .tc := ⟨.hbm, 221, rfl⟩
abbrev main_call5_cst_1 : Ref sig .tc := ⟨.hbm, 222, rfl⟩
abbrev main_call5_v8 : Ref sig .tc := ⟨.hbm, 223, rfl⟩
abbrev main_call5_cst_2 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_v12 : Ref sig .tc := ⟨.hbm, 228, rfl⟩
abbrev main_call5_cst_3 : Ref sig .tc := ⟨.hbm, 229, rfl⟩
abbrev main_call5_v13 : Ref sig .tc := ⟨.hbm, 230, rfl⟩
abbrev main_call5_cst_4 : Ref sig .tc := ⟨.hbm, 231, rfl⟩
abbrev main_call5_call0_v0 : Ref sig .tc := ⟨.hbm, 232, rfl⟩
abbrev main_call5_call0_v1 : Ref sig .tc := ⟨.hbm, 233, rfl⟩
abbrev main_v73 : Ref sig .tc := ⟨.hbm, 234, rfl⟩
abbrev main_v74 : Ref sig .tc := ⟨.hbm, 235, rfl⟩
abbrev main_v75 : Ref sig .tc := ⟨.hbm, 236, rfl⟩
abbrev main_v76 : Ref sig .tc := ⟨.hbm, 237, rfl⟩
abbrev main_v77 : Ref sig .tc := ⟨.hbm, 238, rfl⟩
abbrev main_v78 : Ref sig .tc := ⟨.hbm, 239, rfl⟩
abbrev main_v79 : Ref sig .tc := ⟨.hbm, 240, rfl⟩
abbrev main_v80 : Ref sig .tc := ⟨.hbm, 241, rfl⟩
abbrev main_v81 : Ref sig .tc := ⟨.hbm, 242, rfl⟩
abbrev main_v82 : Ref sig .tc := ⟨.hbm, 243, rfl⟩
abbrev main_v83 : Ref sig .tc := ⟨.hbm, 244, rfl⟩
abbrev main_v84 : Ref sig .tc := ⟨.hbm, 245, rfl⟩
abbrev main_v85 : Ref sig .tc := ⟨.hbm, 246, rfl⟩
abbrev main_v86 : Ref sig .tc := ⟨.hbm, 247, rfl⟩
abbrev main_v87 : Ref sig .tc := ⟨.hbm, 248, rfl⟩
abbrev main_v88 : Ref sig .tc := ⟨.hbm, 249, rfl⟩
abbrev main_call6_c : Ref sig .tc := ⟨.hbm, 250, rfl⟩
abbrev main_call6_v0 : Ref sig .tc := ⟨.hbm, 251, rfl⟩
abbrev main_call6_v1 : Ref sig .tc := ⟨.hbm, 252, rfl⟩
abbrev main_call6_c_0 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_call6_v5 : Ref sig .tc := ⟨.hbm, 257, rfl⟩
abbrev main_call6_c_1 : Ref sig .tc := ⟨.hbm, 258, rfl⟩
abbrev main_call6_c_2 : Ref sig .tc := ⟨.hbm, 259, rfl⟩
abbrev main_call6_v6 : Ref sig .tc := ⟨.hbm, 260, rfl⟩
abbrev main_call6_v7 : Ref sig .tc := ⟨.hbm, 261, rfl⟩
abbrev main_call6_v8 : Ref sig .tc := ⟨.hbm, 262, rfl⟩
abbrev main_call6_v9 : Ref sig .tc := ⟨.hbm, 263, rfl⟩
abbrev main_call6_v10 : Ref sig .tc := ⟨.hbm, 264, rfl⟩
abbrev main_call6_v11 : Ref sig .tc := ⟨.hbm, 265, rfl⟩
abbrev main_call6_c_3 : Ref sig .tc := ⟨.hbm, 266, rfl⟩
abbrev main_call6_v12 : Ref sig .tc := ⟨.hbm, 267, rfl⟩
abbrev main_call6_v13 : Ref sig .tc := ⟨.hbm, 268, rfl⟩
abbrev main_call6_v14 : Ref sig .tc := ⟨.hbm, 269, rfl⟩
abbrev main_call6_cst : Ref sig .tc := ⟨.hbm, 270, rfl⟩
abbrev main_call6_v15 : Ref sig .tc := ⟨.hbm, 271, rfl⟩
abbrev main_v89 : Ref sig .tc := ⟨.hbm, 272, rfl⟩
abbrev main_cst_10 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_v93 : Ref sig .tc := ⟨.hbm, 277, rfl⟩
abbrev main_v94 : Ref sig .tc := ⟨.hbm, 278, rfl⟩
abbrev main_v95 : Ref sig .tc := ⟨.hbm, 279, rfl⟩
abbrev main_cst_11 : Ref sig .tc := ⟨.hbm, 280, rfl⟩
abbrev main_v96 : Ref sig .tc := ⟨.hbm, 281, rfl⟩
abbrev main_v97 : Ref sig .tc := ⟨.hbm, 282, rfl⟩
abbrev main_cst_12 : Ref sig .tc := ⟨.hbm, 283, rfl⟩
abbrev main_v98 : Ref sig .tc := ⟨.hbm, 284, rfl⟩
abbrev main_v99 : Ref sig .tc := ⟨.hbm, 285, rfl⟩
abbrev main_c_13 : Ref sig .tc := ⟨.hbm, 286, rfl⟩
abbrev main_call7_cst : Ref sig .tc := ⟨.hbm, 287, rfl⟩
abbrev main_call7_v0 : Ref sig .tc := ⟨.hbm, 288, rfl⟩
abbrev main_call7_v1 : Ref sig .tc := ⟨.hbm, 289, rfl⟩
abbrev main_call7_cst_0 : Ref sig .tc := ⟨.hbm, 290, rfl⟩
abbrev main_call7_v2 : Ref sig .tc := ⟨.hbm, 291, rfl⟩
abbrev main_call7_v3 : Ref sig .tc := ⟨.hbm, 292, rfl⟩
abbrev main_call7_v4 : Ref sig .tc := ⟨.hbm, 293, rfl⟩
abbrev main_call7_v5 : Ref sig .tc := ⟨.hbm, 294, rfl⟩
abbrev main_call7_v6 : Ref sig .tc := ⟨.hbm, 295, rfl⟩
abbrev main_call7_v7 : Ref sig .tc := ⟨.hbm, 296, rfl⟩
abbrev main_call7_cst_1 : Ref sig .tc := ⟨.hbm, 297, rfl⟩
abbrev main_call7_v8 : Ref sig .tc := ⟨.hbm, 298, rfl⟩
abbrev main_call7_cst_2 : Ref sig .tc := ⟨.hbm, 299, rfl⟩
abbrev main_call7_v9 : Ref sig .tc := ⟨.hbm, 300, rfl⟩
abbrev main_call7_v10 : Ref sig .tc := ⟨.hbm, 301, rfl⟩
abbrev main_call7_v11 : Ref sig .tc := ⟨.hbm, 302, rfl⟩
abbrev main_call7_v12 : Ref sig .tc := ⟨.hbm, 303, rfl⟩
abbrev main_call7_cst_3 : Ref sig .tc := ⟨.hbm, 304, rfl⟩
abbrev main_call7_v13 : Ref sig .tc := ⟨.hbm, 305, rfl⟩
abbrev main_call7_cst_4 : Ref sig .tc := ⟨.hbm, 306, rfl⟩
abbrev main_call7_call0_v0 : Ref sig .tc := ⟨.hbm, 307, rfl⟩
abbrev main_call7_call0_v1 : Ref sig .tc := ⟨.hbm, 308, rfl⟩
abbrev main_v100 : Ref sig .tc := ⟨.hbm, 309, rfl⟩
abbrev main_v101 : Ref sig .tc := ⟨.hbm, 310, rfl⟩
abbrev main_v102 : Ref sig .tc := ⟨.hbm, 311, rfl⟩
abbrev main_v103 : Ref sig .tc := ⟨.hbm, 312, rfl⟩
abbrev main_v104 : Ref sig .tc := ⟨.hbm, 313, rfl⟩
abbrev main_v105 : Ref sig .tc := ⟨.hbm, 314, rfl⟩
abbrev main_v106 : Ref sig .tc := ⟨.hbm, 315, rfl⟩
abbrev main_v107 : Ref sig .tc := ⟨.hbm, 316, rfl⟩
abbrev main_v108 : Ref sig .tc := ⟨.hbm, 317, rfl⟩
abbrev main_v109 : Ref sig .tc := ⟨.hbm, 318, rfl⟩
abbrev main_v110 : Ref sig .tc := ⟨.hbm, 319, rfl⟩
abbrev main_v111 : Ref sig .tc := ⟨.hbm, 320, rfl⟩
abbrev main_v112 : Ref sig .tc := ⟨.hbm, 321, rfl⟩
abbrev main_v113 : Ref sig .tc := ⟨.hbm, 322, rfl⟩
abbrev main_v114 : Ref sig .tc := ⟨.hbm, 323, rfl⟩
abbrev main_v115 : Ref sig .tc := ⟨.hbm, 324, rfl⟩
abbrev main_call8_c : Ref sig .tc := ⟨.hbm, 325, rfl⟩
abbrev main_call8_v0 : Ref sig .tc := ⟨.hbm, 326, rfl⟩
abbrev main_call8_v1 : Ref sig .tc := ⟨.hbm, 327, rfl⟩
abbrev main_call8_c_0 : Ref sig .tc := ⟨.hbm, 328, rfl⟩
abbrev main_call8_v2 : Ref sig .tc := ⟨.hbm, 329, rfl⟩
abbrev main_call8_v3 : Ref sig .tc := ⟨.hbm, 330, rfl⟩
abbrev main_call8_v4 : Ref sig .tc := ⟨.hbm, 331, rfl⟩
abbrev main_call8_v5 : Ref sig .tc := ⟨.hbm, 332, rfl⟩
abbrev main_call8_c_1 : Ref sig .tc := ⟨.hbm, 333, rfl⟩
abbrev main_call8_c_2 : Ref sig .tc := ⟨.hbm, 334, rfl⟩
abbrev main_call8_v6 : Ref sig .tc := ⟨.hbm, 335, rfl⟩
abbrev main_call8_v7 : Ref sig .tc := ⟨.hbm, 336, rfl⟩
abbrev main_call8_v8 : Ref sig .tc := ⟨.hbm, 337, rfl⟩
abbrev main_call8_v9 : Ref sig .tc := ⟨.hbm, 338, rfl⟩
abbrev main_call8_v10 : Ref sig .tc := ⟨.hbm, 339, rfl⟩
abbrev main_call8_v11 : Ref sig .tc := ⟨.hbm, 340, rfl⟩
abbrev main_call8_c_3 : Ref sig .tc := ⟨.hbm, 341, rfl⟩
abbrev main_call8_v12 : Ref sig .tc := ⟨.hbm, 342, rfl⟩
abbrev main_call8_v13 : Ref sig .tc := ⟨.hbm, 343, rfl⟩
abbrev main_call8_v14 : Ref sig .tc := ⟨.hbm, 344, rfl⟩
abbrev main_call8_cst : Ref sig .tc := ⟨.hbm, 345, rfl⟩
abbrev main_call8_v15 : Ref sig .tc := ⟨.hbm, 346, rfl⟩
abbrev main_v116 : Ref sig .tc := ⟨.hbm, 347, rfl⟩
abbrev main_cst_14 : Ref sig .tc := ⟨.hbm, 348, rfl⟩
abbrev main_v117 : Ref sig .tc := ⟨.hbm, 349, rfl⟩
abbrev main_v118 : Ref sig .tc := ⟨.hbm, 350, rfl⟩
abbrev main_v119 : Ref sig .tc := ⟨.hbm, 351, rfl⟩
abbrev main_v120 : Ref sig .tc := ⟨.hbm, 352, rfl⟩
abbrev main_v121 : Ref sig .tc := ⟨.hbm, 353, rfl⟩
abbrev main_v122 : Ref sig .tc := ⟨.hbm, 354, rfl⟩
abbrev main_cst_15 : Ref sig .tc := ⟨.hbm, 355, rfl⟩
abbrev main_v123 : Ref sig .tc := ⟨.hbm, 356, rfl⟩
abbrev main_v124 : Ref sig .tc := ⟨.hbm, 357, rfl⟩
abbrev main_cst_16 : Ref sig .tc := ⟨.hbm, 358, rfl⟩
abbrev main_v125 : Ref sig .tc := ⟨.hbm, 359, rfl⟩
abbrev main_v126 : Ref sig .tc := ⟨.hbm, 360, rfl⟩
abbrev main_c_17 : Ref sig .tc := ⟨.hbm, 361, rfl⟩
abbrev main_call9_cst : Ref sig .tc := ⟨.hbm, 362, rfl⟩
abbrev main_call9_v0 : Ref sig .tc := ⟨.hbm, 363, rfl⟩
abbrev main_call9_v1 : Ref sig .tc := ⟨.hbm, 364, rfl⟩
abbrev main_call9_cst_0 : Ref sig .tc := ⟨.hbm, 365, rfl⟩
abbrev main_call9_v2 : Ref sig .tc := ⟨.hbm, 366, rfl⟩
abbrev main_call9_v3 : Ref sig .tc := ⟨.hbm, 367, rfl⟩
abbrev main_call9_v4 : Ref sig .tc := ⟨.hbm, 368, rfl⟩
abbrev main_call9_v5 : Ref sig .tc := ⟨.hbm, 369, rfl⟩
abbrev main_call9_v6 : Ref sig .tc := ⟨.hbm, 370, rfl⟩
abbrev main_call9_v7 : Ref sig .tc := ⟨.hbm, 371, rfl⟩
abbrev main_call9_cst_1 : Ref sig .tc := ⟨.hbm, 372, rfl⟩
abbrev main_call9_v8 : Ref sig .tc := ⟨.hbm, 373, rfl⟩
abbrev main_call9_cst_2 : Ref sig .tc := ⟨.hbm, 374, rfl⟩
abbrev main_call9_v9 : Ref sig .tc := ⟨.hbm, 375, rfl⟩
abbrev main_call9_v10 : Ref sig .tc := ⟨.hbm, 376, rfl⟩
abbrev main_call9_v11 : Ref sig .tc := ⟨.hbm, 377, rfl⟩
abbrev main_call9_v12 : Ref sig .tc := ⟨.hbm, 378, rfl⟩
abbrev main_call9_cst_3 : Ref sig .tc := ⟨.hbm, 379, rfl⟩
abbrev main_call9_v13 : Ref sig .tc := ⟨.hbm, 380, rfl⟩
abbrev main_call9_cst_4 : Ref sig .tc := ⟨.hbm, 381, rfl⟩
abbrev main_call9_call0_v0 : Ref sig .tc := ⟨.hbm, 382, rfl⟩
abbrev main_call9_call0_v1 : Ref sig .tc := ⟨.hbm, 383, rfl⟩
abbrev main_v127 : Ref sig .tc := ⟨.hbm, 384, rfl⟩
abbrev main_v128 : Ref sig .tc := ⟨.hbm, 385, rfl⟩
abbrev main_v129 : Ref sig .tc := ⟨.hbm, 386, rfl⟩
abbrev main_v130 : Ref sig .tc := ⟨.hbm, 387, rfl⟩
abbrev main_cst_18 : Ref sig .tc := ⟨.hbm, 388, rfl⟩
abbrev main_v131 : Ref sig .tc := ⟨.hbm, 389, rfl⟩
abbrev main_cst_19 : Ref sig .tc := ⟨.hbm, 390, rfl⟩
abbrev main_v132 : Ref sig .tc := ⟨.hbm, 391, rfl⟩
abbrev main_v133 : Ref sig .tc := ⟨.hbm, 392, rfl⟩
abbrev main_v134 : Ref sig .tc := ⟨.hbm, 393, rfl⟩
abbrev main_cst_20 : Ref sig .tc := ⟨.hbm, 394, rfl⟩
abbrev main_v135 : Ref sig .tc := ⟨.hbm, 395, rfl⟩
abbrev main_v136 : Ref sig .tc := ⟨.hbm, 396, rfl⟩
abbrev main_v137 : Ref sig .tc := ⟨.hbm, 397, rfl⟩
abbrev main_cst_21 : Ref sig .tc := ⟨.hbm, 398, rfl⟩
abbrev main_v138 : Ref sig .tc := ⟨.hbm, 399, rfl⟩
abbrev main_v139 : Ref sig .tc := ⟨.hbm, 400, rfl⟩
abbrev main_v140 : Ref sig .tc := ⟨.hbm, 401, rfl⟩
abbrev main_v141 : Ref sig .tc := ⟨.hbm, 402, rfl⟩
abbrev main_v142 : Ref sig .tc := ⟨.hbm, 403, rfl⟩
abbrev main_v143 : Ref sig .tc := ⟨.hbm, 404, rfl⟩
abbrev main_v144 : Ref sig .tc := ⟨.hbm, 405, rfl⟩
abbrev main_v145 : Ref sig .tc := ⟨.hbm, 406, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S32x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S32x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S256x32 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S32x10 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x10 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x10 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x32_S1x32_0_0 : S5x32.Slices ![0, 0] S1x32
  shapeCasts_S1x32_S32 : S1x32.ShapeCasts S32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  reducesTo_S100000x32_S32_d0 : S100000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  shapeCasts_S10000x32_S10000x32 : S10000x32.ShapeCasts S10000x32
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  slices_S5x32_S1x32_1_0 : S5x32.Slices ![1, 0] S1x32
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S32x32_S32x32 : S32x32.ShapeCasts S32x32
  slices_S4x32x32_S1x32x32_1_0_0 : S4x32x32.Slices ![1, 0, 0] S1x32x32
  slices_S4x32_S1x32_1_0 : S4x32.Slices ![1, 0] S1x32
  slices_S5x32_S1x32_2_0 : S5x32.Slices ![2, 0] S1x32
  slices_S4x32x32_S1x32x32_2_0_0 : S4x32x32.Slices ![2, 0, 0] S1x32x32
  slices_S4x32_S1x32_2_0 : S4x32.Slices ![2, 0] S1x32
  slices_S5x32_S1x32_3_0 : S5x32.Slices ![3, 0] S1x32
  slices_S4x32x32_S1x32x32_3_0_0 : S4x32x32.Slices ![3, 0, 0] S1x32x32
  slices_S4x32_S1x32_3_0 : S4x32.Slices ![3, 0] S1x32
  slices_S5x32_S1x32_4_0 : S5x32.Slices ![4, 0] S1x32
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S256x32 : S_.BroadcastsInDim S256x32 (![] : Fin 0 → Fin S256x32.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  shapeCasts_S10_S1x10 : S10.ShapeCasts S1x10
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256_S100000x1_S100000_n_0_0_1_wf : ScatterDims.WF S256 S100000x1 S100000 [] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x10_S256x10_1_0_0_1_n_n_wf : DotDims.WF S256x32 S32x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x32.size a ≤ S100000x32.size a
  hwx4_6 : ∀ i : grid4.Coords, EltTy.bits .f32 = 32 ∨ (Rect.block (s := S100000x32) S10000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S100000x32.size a
  hwx5_5 : ∀ i : grid5.Coords, EltTy.bits .f32 = 32 ∨ (Rect.block (s := S100000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x32.size a ≤ S100000x32.size a
  hwx6_1 : ∀ i : grid6.Coords, EltTy.bits .f32 = 32 ∨ (Rect.block (s := S100000x32) S10000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x32.size a ≤ S32x32.size a
  hwx6_2 : ∀ i : grid6.Coords, EltTy.bits .f32 = 32 ∨ (Rect.block (s := S32x32) S32x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x32.size a ≤ S32x32.size a
  hwx6_4 : ∀ i : grid6.Coords, EltTy.bits .f32 = 32 ∨ (Rect.block (s := S32x32) S32x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x32.size a ≤ S1x32.size a
  hwx6_5 : ∀ i : grid6.Coords, EltTy.bits .f32 = 32 ∨ (Rect.block (s := S1x32) S1x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x32.size a ≤ S100000x32.size a
  hwx6_6 : ∀ i : grid6.Coords, EltTy.bits .f32 = 32 ∨ (Rect.block (s := S100000x32) S10000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x32.size a ≤ S100000x32.size a
  hwx7_5 : ∀ i : grid7.Coords, EltTy.bits .f32 = 32 ∨ (Rect.block (s := S100000x32) S10000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x32.size a ≤ S100000x32.size a
  hwx8_1 : ∀ i : grid8.Coords, EltTy.bits .f32 = 32 ∨ (Rect.block (s := S100000x32) S10000x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S32x32.size a ≤ S32x32.size a
  hwx8_2 : ∀ i : grid8.Coords, EltTy.bits .f32 = 32 ∨ (Rect.block (s := S32x32) S32x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S32x32.size a ≤ S32x32.size a
  hwx8_4 : ∀ i : grid8.Coords, EltTy.bits .f32 = 32 ∨ (Rect.block (s := S32x32) S32x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x32.size a ≤ S1x32.size a
  hwx8_5 : ∀ i : grid8.Coords, EltTy.bits .f32 = 32 ∨ (Rect.block (s := S1x32) S1x32.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x32.size a ≤ S100000x32.size a
  hwx8_6 : ∀ i : grid8.Coords, EltTy.bits .f32 = 32 ∨ (Rect.block (s := S100000x32) S10000x32.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x32.size a ≤ S1x32.size a
  hwx9_3 : ∀ i : grid9.Coords, EltTy.bits .f32 = 32 ∨ (Rect.block (s := S1x32) S1x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x32.size a ≤ S100000x32.size a
  hwx9_5 : ∀ i : grid9.Coords, EltTy.bits .f32 = 32 ∨ (Rect.block (s := S100000x32) S10000x32.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S256x32.size a ≤ S256x32.size a
  hwx10_0 : ∀ i : grid10.Coords, EltTy.bits .f32 = 32 ∨ (Rect.block (s := S256x32) S256x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x10.size a ≤ S32x10.size a
  hwx10_3 : ∀ i : grid10.Coords, EltTy.bits .f32 = 32 ∨ (Rect.block (s := S32x10) S32x10.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x10.size a ≤ S1x10.size a
  hwx10_4 : ∀ i : grid10.Coords, EltTy.bits .f32 = 32 ∨ (Rect.block (s := S1x10) S1x10.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x10.size a ≤ S256x10.size a
  hwx10_5 : ∀ i : grid10.Coords, EltTy.bits .f32 = 32 ∨ (Rect.block (s := S256x10) S256x10.size (cc10_transform_5 i) (hinb10_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x10_S256x10_1_0_0_1_n_n : DotDims S256x32 S32x10 S256x10 where
  lhsContracting := [1]
  rhsContracting := [0]
  lhsNonContracting := [0]
  rhsNonContracting := [1]
  lhsBatch := []
  rhsBatch := []
  wf := dot_S256x32_S32x10_S256x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S10000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68) S10000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v76) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S10000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S32x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S32x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S1x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v95) S10000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v95) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v99) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S10000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v103) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S10000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S32x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v120) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v109) S32x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v121) S1x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v122) S10000x32.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v122) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v129) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v126) S1x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v127) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v130) S10000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v142) S256x32.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v143) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S32x10.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v144) S1x10.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v145) S256x10.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S5x32 : Shape := ⟨2, ![5, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1x32 : Shape := ⟨2, ![1, 32]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32x32 : Shape := ⟨3, ![1, 32, 32]⟩
abbrev S1600000x32 : Shape := ⟨2, ![1600000, 32]⟩
abbrev S256 : Shape := ⟨1, ![256]⟩
abbrev S100000x1 : Shape := ⟨2, ![100000, 1]⟩
abbrev S256x32 : Shape := ⟨2, ![256, 32]⟩
abbrev S256x1 : Shape := ⟨2, ![256, 1]⟩
abbrev S256x10 : Shape := ⟨2, ![256, 10]⟩
abbrev S1x10 : Shape := ⟨2, ![1, 10]⟩

abbrev nBuf : Space → Nat
  | .hbm => 475
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S5x32, .f32⟩
  | 12 => ⟨S5x32, .f32⟩
  | 13 => ⟨S32x32, .f32⟩
  | 14 => ⟨S32, .f32⟩
  | 15 => ⟨S32x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S1x32, .f32⟩
  | 22 => ⟨S32, .f32⟩
  | 23 => ⟨S1x32, .f32⟩
  | 24 => ⟨S32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S100000x32, .f32⟩
  | 47 => ⟨S1x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S100000x32, .f32⟩
  | 66 => ⟨S100000x32, .f32⟩
  | 67 => ⟨S100000x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S1x32, .f32⟩
  | 82 => ⟨S100000x32, .f32⟩
  | 83 => ⟨S100000x32, .f32⟩
  | 84 => ⟨S1x32, .f32⟩
  | 85 => ⟨S100000x32, .f32⟩
  | 86 => ⟨S100000x32, .f32⟩
  | 87 => ⟨S_, .f32⟩
  | 88 => ⟨S32, .f32⟩
  | 89 => ⟨S32, .f32⟩
  | 90 => ⟨S32, .f32⟩
  | 91 => ⟨S1x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S1x32x32, .f32⟩
  | 98 => ⟨S32x32, .f32⟩
  | 99 => ⟨S1x32, .f32⟩
  | 100 => ⟨S32, .f32⟩
  | 101 => ⟨S1x32x32, .f32⟩
  | 102 => ⟨S32x32, .f32⟩
  | 103 => ⟨S1x32, .f32⟩
  | 104 => ⟨S32, .f32⟩
  | 105 => ⟨S1x32, .f32⟩
  | 106 => ⟨S32, .f32⟩
  | 107 => ⟨S1x32, .f32⟩
  | 108 => ⟨S32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S_, .f32⟩
  | 119 => ⟨S100000x32, .f32⟩
  | 120 => ⟨S1600000x1, .i32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x64, .f32⟩

abbrev hbmTy0_1 (i : Nat) : BufTy := match i % 128 with
  | 0 => ⟨S100000x32, .f32⟩
  | 1 => ⟨S100000x32, .f32⟩
  | 2 => ⟨S100000x32, .f32⟩
  | 3 => ⟨S1x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S_, .f32⟩
  | 10 => ⟨S32, .f32⟩
  | 11 => ⟨S_, .f32⟩
  | 12 => ⟨S32, .f32⟩
  | 13 => ⟨S32, .f32⟩
  | 14 => ⟨S_, .i32⟩
  | 15 => ⟨S_, .f32⟩
  | 16 => ⟨S32, .f32⟩
  | 17 => ⟨S1x32, .f32⟩
  | 18 => ⟨S_, .f32⟩
  | 19 => ⟨S1x32, .f32⟩
  | 20 => ⟨S1x32, .f32⟩
  | 21 => ⟨S100000x32, .f32⟩
  | 22 => ⟨S100000x32, .f32⟩
  | 23 => ⟨S100000x32, .f32⟩
  | 24 => ⟨S_, .f32⟩
  | 25 => ⟨S_, .f32⟩
  | 26 => ⟨S_, .f32⟩
  | 27 => ⟨S_, .f32⟩
  | 28 => ⟨S32, .f32⟩
  | 29 => ⟨S32, .f32⟩
  | 30 => ⟨S32, .f32⟩
  | 31 => ⟨S_, .f32⟩
  | 32 => ⟨S_, .i1⟩
  | 33 => ⟨S_, .f32⟩
  | 34 => ⟨S_, .f32⟩
  | 35 => ⟨S32, .f32⟩
  | 36 => ⟨S32, .f32⟩
  | 37 => ⟨S1x32, .f32⟩
  | 38 => ⟨S100000x32, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S32, .f32⟩
  | 45 => ⟨S32, .f32⟩
  | 46 => ⟨S32, .f32⟩
  | 47 => ⟨S1x32, .f32⟩
  | 48 => ⟨S100000x32, .f32⟩
  | 49 => ⟨S100000x32, .f32⟩
  | 50 => ⟨S1x32, .f32⟩
  | 51 => ⟨S100000x32, .f32⟩
  | 52 => ⟨S100000x32, .f32⟩
  | 53 => ⟨S1x32x32, .f32⟩
  | 54 => ⟨S32x32, .f32⟩
  | 55 => ⟨S1x32, .f32⟩
  | 56 => ⟨S32, .f32⟩
  | 57 => ⟨S1x32x32, .f32⟩
  | 58 => ⟨S32x32, .f32⟩
  | 59 => ⟨S1x32, .f32⟩
  | 60 => ⟨S32, .f32⟩
  | 61 => ⟨S1x32, .f32⟩
  | 62 => ⟨S32, .f32⟩
  | 63 => ⟨S1x32, .f32⟩
  | 64 => ⟨S32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S_, .f32⟩
  | 75 => ⟨S100000x32, .f32⟩
  | 76 => ⟨S1600000x1, .i32⟩
  | 77 => ⟨S100000x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x32, .f32⟩
  | 87 => ⟨S1x32, .f32⟩
  | 88 => ⟨S100000x32, .f32⟩
  | 89 => ⟨S100000x32, .f32⟩
  | 90 => ⟨S_, .f32⟩
  | 91 => ⟨S100000x32, .f32⟩
  | 92 => ⟨S100000x32, .f32⟩
  | 93 => ⟨S_, .f32⟩
  | 94 => ⟨S32, .f32⟩
  | 95 => ⟨S_, .f32⟩
  | 96 => ⟨S32, .f32⟩
  | 97 => ⟨S32, .f32⟩
  | 98 => ⟨S_, .i32⟩
  | 99 => ⟨S_, .f32⟩
  | 100 => ⟨S32, .f32⟩
  | 101 => ⟨S1x32, .f32⟩
  | 102 => ⟨S_, .f32⟩
  | 103 => ⟨S1x32, .f32⟩
  | 104 => ⟨S1x32, .f32⟩
  | 105 => ⟨S100000x32, .f32⟩
  | 106 => ⟨S100000x32, .f32⟩
  | 107 => ⟨S100000x32, .f32⟩
  | 108 => ⟨S_, .f32⟩
  | 109 => ⟨S_, .f32⟩
  | 110 => ⟨S_, .f32⟩
  | 111 => ⟨S_, .f32⟩
  | 112 => ⟨S32, .f32⟩
  | 113 => ⟨S32, .f32⟩
  | 114 => ⟨S32, .f32⟩
  | 115 => ⟨S_, .f32⟩
  | 116 => ⟨S_, .i1⟩
  | 117 => ⟨S_, .f32⟩
  | 118 => ⟨S_, .f32⟩
  | 119 => ⟨S32, .f32⟩
  | 120 => ⟨S32, .f32⟩
  | 121 => ⟨S1x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x64, .f32⟩

abbrev hbmTy0_2 (i : Nat) : BufTy := match i % 128 with
  | 0 => ⟨S32, .f32⟩
  | 1 => ⟨S32, .f32⟩
  | 2 => ⟨S32, .f32⟩
  | 3 => ⟨S1x32, .f32⟩
  | 4 => ⟨S100000x32, .f32⟩
  | 5 => ⟨S100000x32, .f32⟩
  | 6 => ⟨S1x32, .f32⟩
  | 7 => ⟨S100000x32, .f32⟩
  | 8 => ⟨S100000x32, .f32⟩
  | 9 => ⟨S1x32x32, .f32⟩
  | 10 => ⟨S32x32, .f32⟩
  | 11 => ⟨S1x32, .f32⟩
  | 12 => ⟨S32, .f32⟩
  | 13 => ⟨S1x32x32, .f32⟩
  | 14 => ⟨S32x32, .f32⟩
  | 15 => ⟨S1x32, .f32⟩
  | 16 => ⟨S32, .f32⟩
  | 17 => ⟨S1x32, .f32⟩
  | 18 => ⟨S32, .f32⟩
  | 19 => ⟨S1x32, .f32⟩
  | 20 => ⟨S32, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S_, .f32⟩
  | 31 => ⟨S100000x32, .f32⟩
  | 32 => ⟨S1600000x1, .i32⟩
  | 33 => ⟨S100000x32, .f32⟩
  | 34 => ⟨S100000x32, .f32⟩
  | 35 => ⟨S100000x32, .f32⟩
  | 36 => ⟨S1x32, .f32⟩
  | 37 => ⟨S100000x32, .f32⟩
  | 38 => ⟨S100000x32, .f32⟩
  | 39 => ⟨S_, .f32⟩
  | 40 => ⟨S100000x32, .f32⟩
  | 41 => ⟨S100000x32, .f32⟩
  | 42 => ⟨S100000x32, .f32⟩
  | 43 => ⟨S1x32, .f32⟩
  | 44 => ⟨S100000x32, .f32⟩
  | 45 => ⟨S100000x32, .f32⟩
  | 46 => ⟨S_, .f32⟩
  | 47 => ⟨S100000x32, .f32⟩
  | 48 => ⟨S100000x32, .f32⟩
  | 49 => ⟨S_, .f32⟩
  | 50 => ⟨S32, .f32⟩
  | 51 => ⟨S_, .f32⟩
  | 52 => ⟨S32, .f32⟩
  | 53 => ⟨S32, .f32⟩
  | 54 => ⟨S_, .i32⟩
  | 55 => ⟨S_, .f32⟩
  | 56 => ⟨S32, .f32⟩
  | 57 => ⟨S1x32, .f32⟩
  | 58 => ⟨S_, .f32⟩
  | 59 => ⟨S1x32, .f32⟩
  | 60 => ⟨S1x32, .f32⟩
  | 61 => ⟨S100000x32, .f32⟩
  | 62 => ⟨S100000x32, .f32⟩
  | 63 => ⟨S100000x32, .f32⟩
  | 64 => ⟨S_, .f32⟩
  | 65 => ⟨S_, .f32⟩
  | 66 => ⟨S_, .f32⟩
  | 67 => ⟨S_, .f32⟩
  | 68 => ⟨S32, .f32⟩
  | 69 => ⟨S32, .f32⟩
  | 70 => ⟨S32, .f32⟩
  | 71 => ⟨S_, .f32⟩
  | 72 => ⟨S_, .i1⟩
  | 73 => ⟨S_, .f32⟩
  | 74 => ⟨S_, .f32⟩
  | 75 => ⟨S32, .f32⟩
  | 76 => ⟨S32, .f32⟩
  | 77 => ⟨S1x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S32, .f32⟩
  | 85 => ⟨S32, .f32⟩
  | 86 => ⟨S32, .f32⟩
  | 87 => ⟨S1x32, .f32⟩
  | 88 => ⟨S100000x32, .f32⟩
  | 89 => ⟨S100000x32, .f32⟩
  | 90 => ⟨S1x32, .f32⟩
  | 91 => ⟨S100000x32, .f32⟩
  | 92 => ⟨S100000x32, .f32⟩
  | 93 => ⟨S1x32x32, .f32⟩
  | 94 => ⟨S32x32, .f32⟩
  | 95 => ⟨S1x32, .f32⟩
  | 96 => ⟨S32, .f32⟩
  | 97 => ⟨S1x32x32, .f32⟩
  | 98 => ⟨S32x32, .f32⟩
  | 99 => ⟨S1x32, .f32⟩
  | 100 => ⟨S32, .f32⟩
  | 101 => ⟨S1x32, .f32⟩
  | 102 => ⟨S32, .f32⟩
  | 103 => ⟨S1x32, .f32⟩
  | 104 => ⟨S32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S1x32, .f32⟩
  | _ => ⟨S100000x64, .f32⟩

abbrev hbmTy0_3 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S_, .f32⟩
  | 6 => ⟨S32, .f32⟩
  | 7 => ⟨S_, .f32⟩
  | 8 => ⟨S32, .f32⟩
  | 9 => ⟨S32, .f32⟩
  | 10 => ⟨S_, .i32⟩
  | 11 => ⟨S_, .f32⟩
  | 12 => ⟨S32, .f32⟩
  | 13 => ⟨S1x32, .f32⟩
  | 14 => ⟨S_, .f32⟩
  | 15 => ⟨S1x32, .f32⟩
  | 16 => ⟨S1x32, .f32⟩
  | 17 => ⟨S100000x32, .f32⟩
  | 18 => ⟨S100000x32, .f32⟩
  | 19 => ⟨S100000x32, .f32⟩
  | 20 => ⟨S_, .f32⟩
  | 21 => ⟨S_, .f32⟩
  | 22 => ⟨S_, .f32⟩
  | 23 => ⟨S_, .f32⟩
  | 24 => ⟨S32, .f32⟩
  | 25 => ⟨S32, .f32⟩
  | 26 => ⟨S32, .f32⟩
  | 27 => ⟨S_, .f32⟩
  | 28 => ⟨S_, .i1⟩
  | 29 => ⟨S_, .f32⟩
  | 30 => ⟨S_, .f32⟩
  | 31 => ⟨S32, .f32⟩
  | 32 => ⟨S32, .f32⟩
  | 33 => ⟨S1x32, .f32⟩
  | 34 => ⟨S100000x32, .f32⟩
  | 35 => ⟨S100000x32, .f32⟩
  | 36 => ⟨S1x32, .f32⟩
  | 37 => ⟨S100000x32, .f32⟩
  | 38 => ⟨S100000x32, .f32⟩
  | 39 => ⟨S_, .f32⟩
  | 40 => ⟨S32, .f32⟩
  | 41 => ⟨S32, .f32⟩
  | 42 => ⟨S32, .f32⟩
  | 43 => ⟨S1x32, .f32⟩
  | 44 => ⟨S100000x32, .f32⟩
  | 45 => ⟨S100000x32, .f32⟩
  | 46 => ⟨S1x32, .f32⟩
  | 47 => ⟨S100000x32, .f32⟩
  | 48 => ⟨S100000x32, .f32⟩
  | 49 => ⟨S_, .f32⟩
  | 50 => ⟨S100000, .f32⟩
  | 51 => ⟨S_, .f32⟩
  | 52 => ⟨S256, .f32⟩
  | 53 => ⟨S100000x1, .i32⟩
  | 54 => ⟨S256, .f32⟩
  | 55 => ⟨S_, .f32⟩
  | 56 => ⟨S256x32, .f32⟩
  | 57 => ⟨S100000x1, .i32⟩
  | 58 => ⟨S256x32, .f32⟩
  | 59 => ⟨S_, .f32⟩
  | 60 => ⟨S256, .f32⟩
  | 61 => ⟨S256, .f32⟩
  | 62 => ⟨S256x1, .f32⟩
  | 63 => ⟨S256x32, .f32⟩
  | 64 => ⟨S256x32, .f32⟩
  | 65 => ⟨S256x32, .f32⟩
  | 66 => ⟨S1x32, .f32⟩
  | 67 => ⟨S256x32, .f32⟩
  | 68 => ⟨S256x32, .f32⟩
  | 69 => ⟨S_, .f32⟩
  | 70 => ⟨S256x32, .f32⟩
  | 71 => ⟨S256x32, .f32⟩
  | 72 => ⟨S256x10, .f32⟩
  | 73 => ⟨S1x10, .f32⟩
  | 74 => ⟨S256x10, .f32⟩
  | 75 => ⟨S256x10, .f32⟩
  | 76 => ⟨S_, .f32⟩
  | 77 => ⟨S256, .f32⟩
  | 78 => ⟨S_, .f32⟩
  | 79 => ⟨S256, .f32⟩
  | 80 => ⟨S256, .f32⟩
  | 81 => ⟨S256x1, .f32⟩
  | 82 => ⟨S256x10, .f32⟩
  | 83 => ⟨S256x10, .f32⟩
  | 84 => ⟨S256x10, .f32⟩
  | 85 => ⟨S_, .f32⟩
  | 86 => ⟨S256, .f32⟩
  | 87 => ⟨S256x1, .f32⟩
  | 88 => ⟨S256x1, .f32⟩
  | 89 => ⟨S256x10, .f32⟩
  | 90 => ⟨S256x10, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_6 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_7 : Ref sig .tc := ⟨.hbm, 109, rfl⟩
abbrev main_v62 : Ref sig .tc := ⟨.hbm, 110, rfl⟩
abbrev main_v63 : Ref sig .tc := ⟨.hbm, 111, rfl⟩
abbrev main_c_8 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_9 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_10 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_11 : Ref sig .tc := ⟨.hbm, 134, rfl⟩
abbrev main_v83 : Ref sig .tc := ⟨.hbm, 135, rfl⟩
abbrev main_v84 : Ref sig .tc := ⟨.hbm, 136, rfl⟩
abbrev main_cst_12 : Ref sig .tc := ⟨.hbm, 137, rfl⟩
abbrev main_v85 : Ref sig .tc := ⟨.hbm, 138, rfl⟩
abbrev main_cst_13 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_cst_1 : Ref sig .tc := ⟨.hbm, 153, rfl⟩
abbrev main_call1_v8 : Ref sig .tc := ⟨.hbm, 154, rfl⟩
abbrev main_call1_cst_2 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_call1_cst_3 : Ref sig .tc := ⟨.hbm, 159, rfl⟩
abbrev main_call1_v12 : Ref sig .tc := ⟨.hbm, 160, rfl⟩
abbrev main_call1_cst_4 : Ref sig .tc := ⟨.hbm, 161, rfl⟩
abbrev main_call1_call0_v0 : Ref sig .tc := ⟨.hbm, 162, rfl⟩
abbrev main_call1_call0_v1 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_15 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_c_16 : Ref sig .tc := ⟨.hbm, 193, rfl⟩
abbrev main_v116 : Ref sig .tc := ⟨.hbm, 194, rfl⟩
abbrev main_v117 : Ref sig .tc := ⟨.hbm, 195, rfl⟩
abbrev main_c_17 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_18 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_19 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_20 : Ref sig .tc := ⟨.hbm, 218, rfl⟩
abbrev main_v137 : Ref sig .tc := ⟨.hbm, 219, rfl⟩
abbrev main_v138 : Ref sig .tc := ⟨.hbm, 220, rfl⟩
abbrev main_cst_21 : Ref sig .tc := ⟨.hbm, 221, rfl⟩
abbrev main_v139 : Ref sig .tc := ⟨.hbm, 222, rfl⟩
abbrev main_cst_22 : Ref sig .tc := ⟨.hbm, 223, rfl⟩
abbrev main_v140 : Ref sig .tc := ⟨.hbm, 224, rfl⟩
abbrev main_v141 : Ref sig .tc := ⟨.hbm, 225, rfl⟩
abbrev main_c_23 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_cst_0 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_v7 : Ref sig .tc := ⟨.hbm, 236, rfl⟩
abbrev main_call2_cst_1 : Ref sig .tc := ⟨.hbm, 237, rfl⟩
abbrev main_call2_v8 : Ref sig .tc := ⟨.hbm, 238, rfl⟩
abbrev main_call2_cst_2 : Ref sig .tc := ⟨.hbm, 239, rfl⟩
abbrev main_call2_v9 : Ref sig .tc := ⟨.hbm, 240, rfl⟩
abbrev main_call2_v10 : Ref sig .tc := ⟨.hbm, 241, rfl⟩
abbrev main_call2_v11 : Ref sig .tc := ⟨.hbm, 242, rfl⟩
abbrev main_call2_cst_3 : Ref sig .tc := ⟨.hbm, 243, rfl⟩
abbrev main_call2_v12 : Ref sig .tc := ⟨.hbm, 244, rfl⟩
abbrev main_call2_cst_4 : Ref sig .tc := ⟨.hbm, 245, rfl⟩
abbrev main_call2_call0_v0 : Ref sig .tc := ⟨.hbm, 246, rfl⟩
abbrev main_call2_call0_v1 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_cst_24 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_c_25 : Ref sig .tc := ⟨.hbm, 277, rfl⟩
abbrev main_v170 : Ref sig .tc := ⟨.hbm, 278, rfl⟩
abbrev main_v171 : Ref sig .tc := ⟨.hbm, 279, rfl⟩
abbrev main_c_26 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_cst_27 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_cst_28 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_cst_29 : Ref sig .tc := ⟨.hbm, 302, rfl⟩
abbrev main_v191 : Ref sig .tc := ⟨.hbm, 303, rfl⟩
abbrev main_v192 : Ref sig .tc := ⟨.hbm, 304, rfl⟩
abbrev main_cst_30 : Ref sig .tc := ⟨.hbm, 305, rfl⟩
abbrev main_v193 : Ref sig .tc := ⟨.hbm, 306, rfl⟩
abbrev main_cst_31 : Ref sig .tc := ⟨.hbm, 307, rfl⟩
abbrev main_v194 : Ref sig .tc := ⟨.hbm, 308, rfl⟩
abbrev main_v195 : Ref sig .tc := ⟨.hbm, 309, rfl⟩
abbrev main_c_32 : Ref sig .tc := ⟨.hbm, 310, rfl⟩
abbrev main_call3_cst : Ref sig .tc := ⟨.hbm, 311, rfl⟩
abbrev main_call3_v0 : Ref sig .tc := ⟨.hbm, 312, rfl⟩
abbrev main_call3_v1 : Ref sig .tc := ⟨.hbm, 313, rfl⟩
abbrev main_call3_cst_0 : Ref sig .tc := ⟨.hbm, 314, rfl⟩
abbrev main_call3_v2 : Ref sig .tc := ⟨.hbm, 315, rfl⟩
abbrev main_call3_v3 : Ref sig .tc := ⟨.hbm, 316, rfl⟩
abbrev main_call3_v4 : Ref sig .tc := ⟨.hbm, 317, rfl⟩
abbrev main_call3_v5 : Ref sig .tc := ⟨.hbm, 318, rfl⟩
abbrev main_call3_v6 : Ref sig .tc := ⟨.hbm, 319, rfl⟩
abbrev main_call3_v7 : Ref sig .tc := ⟨.hbm, 320, rfl⟩
abbrev main_call3_cst_1 : Ref sig .tc := ⟨.hbm, 321, rfl⟩
abbrev main_call3_v8 : Ref sig .tc := ⟨.hbm, 322, rfl⟩
abbrev main_call3_cst_2 : Ref sig .tc := ⟨.hbm, 323, rfl⟩
abbrev main_call3_v9 : Ref sig .tc := ⟨.hbm, 324, rfl⟩
abbrev main_call3_v10 : Ref sig .tc := ⟨.hbm, 325, rfl⟩
abbrev main_call3_v11 : Ref sig .tc := ⟨.hbm, 326, rfl⟩
abbrev main_call3_cst_3 : Ref sig .tc := ⟨.hbm, 327, rfl⟩
abbrev main_call3_v12 : Ref sig .tc := ⟨.hbm, 328, rfl⟩
abbrev main_call3_cst_4 : Ref sig .tc := ⟨.hbm, 329, rfl⟩
abbrev main_call3_call0_v0 : Ref sig .tc := ⟨.hbm, 330, rfl⟩
abbrev main_call3_call0_v1 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_33 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_c_34 : Ref sig .tc := ⟨.hbm, 361, rfl⟩
abbrev main_v224 : Ref sig .tc := ⟨.hbm, 362, rfl⟩
abbrev main_v225 : Ref sig .tc := ⟨.hbm, 363, rfl⟩
abbrev main_c_35 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_v230 : Ref sig .tc := ⟨.hbm, 369, rfl⟩
abbrev main_cst_36 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_cst_37 : Ref sig .tc := ⟨.hbm, 379, rfl⟩
abbrev main_v239 : Ref sig .tc := ⟨.hbm, 380, rfl⟩
abbrev main_v240 : Ref sig .tc := ⟨.hbm, 381, rfl⟩
abbrev main_v241 : Ref sig .tc := ⟨.hbm, 382, rfl⟩
abbrev main_v242 : Ref sig .tc := ⟨.hbm, 383, rfl⟩
abbrev main_v243 : Ref sig .tc := ⟨.hbm, 384, rfl⟩
abbrev main_v244 : Ref sig .tc := ⟨.hbm, 385, rfl⟩
abbrev main_cst_38 : Ref sig .tc := ⟨.hbm, 386, rfl⟩
abbrev main_v245 : Ref sig .tc := ⟨.hbm, 387, rfl⟩
abbrev main_v246 : Ref sig .tc := ⟨.hbm, 388, rfl⟩
abbrev main_cst_39 : Ref sig .tc := ⟨.hbm, 389, rfl⟩
abbrev main_v247 : Ref sig .tc := ⟨.hbm, 390, rfl⟩
abbrev main_cst_40 : Ref sig .tc := ⟨.hbm, 391, rfl⟩
abbrev main_v248 : Ref sig .tc := ⟨.hbm, 392, rfl⟩
abbrev main_v249 : Ref sig .tc := ⟨.hbm, 393, rfl⟩
abbrev main_c_41 : Ref sig .tc := ⟨.hbm, 394, rfl⟩
abbrev main_call4_cst : Ref sig .tc := ⟨.hbm, 395, rfl⟩
abbrev main_call4_v0 : Ref sig .tc := ⟨.hbm, 396, rfl⟩
abbrev main_call4_v1 : Ref sig .tc := ⟨.hbm, 397, rfl⟩
abbrev main_call4_cst_0 : Ref sig .tc := ⟨.hbm, 398, rfl⟩
abbrev main_call4_v2 : Ref sig .tc := ⟨.hbm, 399, rfl⟩
abbrev main_call4_v3 : Ref sig .tc := ⟨.hbm, 400, rfl⟩
abbrev main_call4_v4 : Ref sig .tc := ⟨.hbm, 401, rfl⟩
abbrev main_call4_v5 : Ref sig .tc := ⟨.hbm, 402, rfl⟩
abbrev main_call4_v6 : Ref sig .tc := ⟨.hbm, 403, rfl⟩
abbrev main_call4_v7 : Ref sig .tc := ⟨.hbm, 404, rfl⟩
abbrev main_call4_cst_1 : Ref sig .tc := ⟨.hbm, 405, rfl⟩
abbrev main_call4_v8 : Ref sig .tc := ⟨.hbm, 406, rfl⟩
abbrev main_call4_cst_2 : Ref sig .tc := ⟨.hbm, 407, rfl⟩
abbrev main_call4_v9 : Ref sig .tc := ⟨.hbm, 408, rfl⟩
abbrev main_call4_v10 : Ref sig .tc := ⟨.hbm, 409, rfl⟩
abbrev main_call4_v11 : Ref sig .tc := ⟨.hbm, 410, rfl⟩
abbrev main_call4_cst_3 : Ref sig .tc := ⟨.hbm, 411, rfl⟩
abbrev main_call4_v12 : Ref sig .tc := ⟨.hbm, 412, rfl⟩
abbrev main_call4_cst_4 : Ref sig .tc := ⟨.hbm, 413, rfl⟩
abbrev main_call4_call0_v0 : Ref sig .tc := ⟨.hbm, 414, rfl⟩
abbrev main_call4_call0_v1 : Ref sig .tc := ⟨.hbm, 415, rfl⟩
abbrev main_v250 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_v255 : Ref sig .tc := ⟨.hbm, 421, rfl⟩
abbrev main_v256 : Ref sig .tc := ⟨.hbm, 422, rfl⟩
abbrev main_cst_42 : Ref sig .tc := ⟨.hbm, 423, rfl⟩
abbrev main_v257 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩
abbrev main_v261 : Ref sig .tc := ⟨.hbm, 428, rfl⟩
abbrev main_v262 : Ref sig .tc := ⟨.hbm, 429, rfl⟩
abbrev main_v263 : Ref sig .tc := ⟨.hbm, 430, rfl⟩
abbrev main_v264 : Ref sig .tc := ⟨.hbm, 431, rfl⟩
abbrev main_v265 : Ref sig .tc := ⟨.hbm, 432, rfl⟩
abbrev main_cst_43 : Ref sig .tc := ⟨.hbm, 433, rfl⟩
abbrev main_v266 : Ref sig .tc := ⟨.hbm, 434, rfl⟩
abbrev main_cst_44 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_cst_45 : Ref sig .tc := ⟨.hbm, 439, rfl⟩
abbrev main_v270 : Ref sig .tc := ⟨.hbm, 440, rfl⟩
abbrev main_v271 : Ref sig .tc := ⟨.hbm, 441, rfl⟩
abbrev main_v272 : Ref sig .tc := ⟨.hbm, 442, rfl⟩
abbrev main_cst_46 : Ref sig .tc := ⟨.hbm, 443, rfl⟩
abbrev main_v273 : Ref sig .tc := ⟨.hbm, 444, rfl⟩
abbrev main_v274 : Ref sig .tc := ⟨.hbm, 445, rfl⟩
abbrev main_v275 : Ref sig .tc := ⟨.hbm, 446, rfl⟩
abbrev main_v276 : Ref sig .tc := ⟨.hbm, 447, rfl⟩
abbrev main_v277 : Ref sig .tc := ⟨.hbm, 448, rfl⟩
abbrev main_v278 : Ref sig .tc := ⟨.hbm, 449, rfl⟩
abbrev main_v279 : Ref sig .tc := ⟨.hbm, 450, rfl⟩
abbrev main_v280 : Ref sig .tc := ⟨.hbm, 451, rfl⟩
abbrev main_v281 : Ref sig .tc := ⟨.hbm, 452, rfl⟩
abbrev main_cst_47 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_v287 : Ref sig .tc := ⟨.hbm, 459, rfl⟩
abbrev main_call5_cst : Ref sig .tc := ⟨.hbm, 460, rfl⟩
abbrev main_call5_v0 : Ref sig .tc := ⟨.hbm, 461, rfl⟩
abbrev main_call5_cst_0 : Ref sig .tc := ⟨.hbm, 462, rfl⟩
abbrev main_call5_v1 : Ref sig .tc := ⟨.hbm, 463, rfl⟩
abbrev main_call5_v2 : Ref sig .tc := ⟨.hbm, 464, rfl⟩
abbrev main_call5_v3 : Ref sig .tc := ⟨.hbm, 465, rfl⟩
abbrev main_call5_v4 : Ref sig .tc := ⟨.hbm, 466, rfl⟩
abbrev main_call5_v5 : Ref sig .tc := ⟨.hbm, 467, rfl⟩
abbrev main_call5_v6 : Ref sig .tc := ⟨.hbm, 468, rfl⟩
abbrev main_call5_cst_1 : Ref sig .tc := ⟨.hbm, 469, rfl⟩
abbrev main_call5_v7 : Ref sig .tc := ⟨.hbm, 470, rfl⟩
abbrev main_call5_v8 : Ref sig .tc := ⟨.hbm, 471, rfl⟩
abbrev main_call5_v9 : Ref sig .tc := ⟨.hbm, 472, rfl⟩
abbrev main_call5_v10 : Ref sig .tc := ⟨.hbm, 473, rfl⟩
abbrev main_v288 : Ref sig .tc := ⟨.hbm, 474, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x32_S1x32_0_0 : S5x32.Slices ![0, 0] S1x32
  shapeCasts_S1x32_S32 : S1x32.ShapeCasts S32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  slices_S5x32_S1x32_1_0 : S5x32.Slices ![1, 0] S1x32
  slices_S4x32x32_S1x32x32_1_0_0 : S4x32x32.Slices ![1, 0, 0] S1x32x32
  slices_S4x32_S1x32_1_0 : S4x32.Slices ![1, 0] S1x32
  slices_S5x32_S1x32_2_0 : S5x32.Slices ![2, 0] S1x32
  slices_S4x32x32_S1x32x32_2_0_0 : S4x32x32.Slices ![2, 0, 0] S1x32x32
  slices_S4x32_S1x32_2_0 : S4x32.Slices ![2, 0] S1x32
  slices_S5x32_S1x32_3_0 : S5x32.Slices ![3, 0] S1x32
  slices_S4x32x32_S1x32x32_3_0_0 : S4x32x32.Slices ![3, 0, 0] S1x32x32
  slices_S4x32_S1x32_3_0 : S4x32.Slices ![3, 0] S1x32
  slices_S5x32_S1x32_4_0 : S5x32.Slices ![4, 0] S1x32
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S256x32 : S_.BroadcastsInDim S256x32 (![] : Fin 0 → Fin S256x32.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  bcast_S256x1_S256x10_0_1 : S256x1.BroadcastsInDim S256x10 (![0, 1] : Fin 2 → Fin S256x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256_S100000x1_S100000_n_0_0_1_wf : ScatterDims.WF S256 S100000x1 S100000 [] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x10_S256x10_1_0_0_1_n_n_wf : DotDims.WF S256x32 S32x10 S256x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x10_S256x10_1_0_0_1_n_n : DotDims S256x32 S32x10 S256x10 where
  lhsContracting := [1]
  rhsContracting := [0]
  lhsNonContracting := [0]
  rhsNonContracting := [1]
  lhsBatch := []
  rhsBatch := []
  wf := dot_S256x32_S32x10_S256x10_1_0_0_1_n_n_wf

class Facts : Prop extends Facts₀ where

variable [Facts]
-- ==== Proof.Spec.lean ====
import proofs.«430980_j44702019616883_2_alg».proof.Proof.Gen.ReferenceIdeal

noncomputable section

namespace Cert.Gin.Spec

open Cert.ReferenceIdeal Cert.ReferenceIdeal.Facts₀ Idealize.ShloMosaic Idealize.ShloMosaic.TcCoe

variable {F : FTy → Type} [FloatOps F]

def idx (main_v1 : (⟨S1600000, .i32⟩ : BufTy).Contents (Elt F)) :=
  let main_c : (⟨S_, .i32⟩ : BufTy).Contents (Elt F) := (constantI S_ 32 0#32)
  let main_v8 : (⟨S1600000, .i32⟩ : BufTy).Contents (Elt F) := (broadcastInDim S1600000 ![] bcast_S_S1600000) main_c
  let main_v9 : (⟨S1600000, .i1⟩ : BufTy).Contents (Elt F) := (cmpi .slt) main_v1 main_v8
  let main_c_0 : (⟨S_, .i32⟩ : BufTy).Contents (Elt F) := (constantI S_ 32 100000#32)
  let main_v10 : (⟨S1600000, .i32⟩ : BufTy).Contents (Elt F) := (broadcastInDim S1600000 ![] bcast_S_S1600000) main_c_0
  let main_v11 : (⟨S1600000, .i32⟩ : BufTy).Contents (Elt F) := addi main_v1 main_v10
  let main_v12 : (⟨S1600000, .i32⟩ : BufTy).Contents (Elt F) := select main_v9 main_v11 main_v1
  let main_v13 : (⟨S1600000x1, .i32⟩ : BufTy).Contents (Elt F) := (broadcastInDim S1600000x1 ![0] bcast_S1600000_S1600000x1_0) main_v12
  main_v13

def aggA (main_arg0 : (⟨S100000x64, .f32⟩ : BufTy).Contents (Elt F)) (main_v13 : (⟨S1600000x1, .i32⟩ : BufTy).Contents (Elt F)) (main_v3 : (⟨S1600000, .i32⟩ : BufTy).Contents (Elt F)) :=
  let main_v14 : (⟨S1600000x64, .f32⟩ : BufTy).Contents (Elt F) := (fun x i => Host.gather gather_S100000x64_S1600000x1_S1600000x64_1_0_n_n_0_1_164 x i) main_arg0 main_v13
  let main_cst : (⟨S_, .f32⟩ : BufTy).Contents (Elt F) := (constant S_ .f32 0x00000000#32)
  let main_v15 : (⟨S100000x64, .f32⟩ : BufTy).Contents (Elt F) := (broadcastInDim S100000x64 ![] bcast_S_S100000x64) main_cst
  let main_v16 : (⟨S1600000x1, .i32⟩ : BufTy).Contents (Elt F) := (broadcastInDim S1600000x1 ![0] bcast_S1600000_S1600000x1_0) main_v3
  let main_v17 : (⟨S100000x64, .f32⟩ : BufTy).Contents (Elt F) := (fun x i u => Host.scatterAdd scatter_S100000x64_S1600000x1_S1600000x64_1_0_0_1 x i u) main_v15 main_v16 main_v14
  main_v17

def mlpA (main_arg0 : (⟨S100000x64, .f32⟩ : BufTy).Contents (Elt F)) (main_v17 : (⟨S100000x64, .f32⟩ : BufTy).Contents (Elt F)) (main_arg3 : (⟨S64x32, .f32⟩ : BufTy).Contents (Elt F)) (main_v20 : (⟨S1x32, .f32⟩ : BufTy).Contents (Elt F)) (main_arg5 : (⟨S32x32, .f32⟩ : BufTy).Contents (Elt F)) (main_v26 : (⟨S1x32, .f32⟩ : BufTy).Contents (Elt F)) :=
  let main_v18 : (⟨S100000x64, .f32⟩ : BufTy).Contents (Elt F) := addf main_arg0 main_v17
  let main_v19 : (⟨S100000x32, .f32⟩ : BufTy).Contents (Elt F) := (fun l r => Host.dotGeneral dot_S100000x64_S64x32_S100000x32_1_0_0_1_n_n none l r) main_v18 main_arg3
  let main_v21 : (⟨S100000x32, .f32⟩ : BufTy).Contents (Elt F) := (broadcastInDim S100000x32 ![0, 1] bcast_S1x32_S100000x32_0_1) main_v20
  let main_v22 : (⟨S100000x32, .f32⟩ : BufTy).Contents (Elt F) := addf main_v19 main_v21
  let main_cst_1 : (⟨S_, .f32⟩ : BufTy).Contents (Elt F) := (constant S_ .f32 0x00000000#32)
  let main_v23 : (⟨S100000x32, .f32⟩ : BufTy).Contents (Elt F) := (broadcastInDim S100000x32 ![] bcast_S_S100000x32) main_cst_1
  let main_v24 : (⟨S100000x32, .f32⟩ : BufTy).Contents (Elt F) := maximumf main_v22 main_v23
  let main_v25 : (⟨S100000x32, .f32⟩ : BufTy).Contents (Elt F) := (fun l r => Host.dotGeneral dot_S100000x32_S32x32_S100000x32_1_0_0_1_n_n none l r) main_v24 main_arg5
  let main_v27 : (⟨S100000x32, .f32⟩ : BufTy).Contents (Elt F) := (broadcastInDim S100000x32 ![0, 1] bcast_S1x32_S100000x32_0_1) main_v26
  let main_v28 : (⟨S100000x32, .f32⟩ : BufTy).Contents (Elt F) := addf main_v25 main_v27
  let main_cst_2 : (⟨S_, .f32⟩ : BufTy).Contents (Elt F) := (constant S_ .f32 0x00000000#32)
  let main_v29 : (⟨S100000x32, .f32⟩ : BufTy).Contents (Elt F) := (broadcastInDim S100000x32 ![] bcast_S_S100000x32) main_cst_2
  let main_v30 : (⟨S100000x32, .f32⟩ : BufTy).Contents (Elt F) := maximumf main_v28 main_v29
  main_v30

def mean (main_v30 : (⟨S100000x32, .f32⟩ : BufTy).Contents (Elt F)) :=
  let main_cst_3 : (⟨S_, .f32⟩ : BufTy).Contents (Elt F) := (constant S_ .f32 0x00000000#32)
  let main_v31 : (⟨S32, .f32⟩ : BufTy).Contents (Elt F) := (fun x v => Host.reduceAdd x v reducesTo_S100000x32_S32_d0 h_S_) main_v30 main_cst_3
  let main_cst_4 : (⟨S_, .f32⟩ : BufTy).Contents (Elt F) := (constant S_ .f32 0x47C35000#32)
  let main_v32 : (⟨S32, .f32⟩ : BufTy).Contents (Elt F) := (broadcastInDim S32 ![] bcast_S_S32) main_cst_4
  let main_v33 : (⟨S32, .f32⟩ : BufTy).Contents (Elt F) := Host.divf main_v31 main_v32
  main_v33

def var (main_v30 : (⟨S100000x32, .f32⟩ : BufTy).Contents (Elt F)) :=
  let main_c_5 : (⟨S_, .i32⟩ : BufTy).Contents (Elt F) := (constantI S_ 32 0#32)
  let main_call0_cst : (⟨S_, .f32⟩ : BufTy).Contents (Elt F) := (constant S_ .f32 0x00000000#32)
  let main_call0_v0 : (⟨S32, .f32⟩ : BufTy).Contents (Elt F) := (fun x v => Host.reduceAdd x v reducesTo_S100000x32_S32_d0 h_S_) main_v30 main_call0_cst
  let main_call0_v1 : (⟨S1x32, .f32⟩ : BufTy).Contents (Elt F) := (broadcastInDim S1x32 ![1] bcast_S32_S1x32_1) main_call0_v0
  let main_call0_cst_0 : (⟨S_, .f32⟩ : BufTy).Contents (Elt F) := (constant S_ .f32 0x47C35000#32)
  let main_call0_v2 : (⟨S1x32, .f32⟩ : BufTy).Contents (Elt F) := (broadcastInDim S1x32 ![] bcast_S_S1x32) main_call0_cst_0
  let main_call0_v3 : (⟨S1x32, .f32⟩ : BufTy).Contents (Elt F) := Host.divf main_call0_v1 main_call0_v2
  let main_call0_v4 : (⟨S100000x32, .f32⟩ : BufTy).Contents (Elt F) := (broadcastInDim S100000x32 ![0, 1] bcast_S1x32_S100000x32_0_1) main_call0_v3
  let main_call0_v5 : (⟨S100000x32, .f32⟩ : BufTy).Contents (Elt F) := subf main_v30 main_call0_v4
  let main_call0_v6 : (⟨S100000x32, .f32⟩ : BufTy).Contents (Elt F) := mulf main_call0_v5 main_call0_v5
  let main_call0_v7 : (⟨S_, .f32⟩ : BufTy).Contents (Elt F) := (sitofp .f32) main_c_5
  let main_call0_cst_1 : (⟨S_, .f32⟩ : BufTy).Contents (Elt F) := (constant S_ .f32 0x47C35000#32)
  let main_call0_v8 : (⟨S_, .f32⟩ : BufTy).Contents (Elt F) := subf main_call0_cst_1 main_call0_v7
  let main_call0_cst_2 : (⟨S_, .f32⟩ : BufTy).Contents (Elt F) := (constant S_ .f32 0x00000000#32)
  let main_call0_v9 : (⟨S32, .f32⟩ : BufTy).Contents (Elt F) := (fun x v => Host.reduceAdd x v reducesTo_S100000x32_S32_d0 h_S_) main_call0_v6 main_call0_cst_2
  let main_call0_v10 : (⟨S32, .f32⟩ : BufTy).Contents (Elt F) := (broadcastInDim S32 ![] bcast_S_S32) main_call0_v8
  let main_call0_v11 : (⟨S32, .f32⟩ : BufTy).Contents (Elt F) := Host.divf main_call0_v9 main_call0_v10
  let main_call0_cst_3 : (⟨S_, .f32⟩ : BufTy).Contents (Elt F) := (constant S_ .f32 0x00000000#32)
  let main_call0_v12 : (⟨S_, .i1⟩ : BufTy).Contents (Elt F) := (cmpf .ogt) main_call0_v8 main_call0_cst_3
  let main_call0_cst_4 : (⟨S_, .f32⟩ : BufTy).Contents (Elt F) := (constant S_ .f32 0x7FC00000#32)
  let main_call0_call0_v0 : (⟨S_, .f32⟩ : BufTy).Contents (Elt F) := id main_call0_cst_4
  let main_call0_call0_v1 : (⟨S32, .f32⟩ : BufTy).Contents (Elt F) := (broadcastInDim S32 ![] bcast_S_S32) main_call0_call0_v0
  let main_v34 : (⟨S32, .f32⟩ : BufTy).Contents (Elt F) := (fun p a b => select (broadcastInDim S32 ![] bcast_S_S32 p) a b) main_call0_v12 main_call0_v11 main_call0_call0_v1
  main_v34

def bnApply (main_v30 : (⟨S100000x32, .f32⟩ : BufTy).Contents (Elt F)) (main_v33 : (⟨S32, .f32⟩ : BufTy).Contents (Elt F)) (main_v34 : (⟨S32, .f32⟩ : BufTy).Contents (Elt F)) (main_v5 : (⟨S32, .f32⟩ : BufTy).Contents (Elt F)) (main_v7 : (⟨S32, .f32⟩ : BufTy).Contents (Elt F)) :=
  let main_v35 : (⟨S1x32, .f32⟩ : BufTy).Contents (Elt F) := (broadcastInDim S1x32 ![1] bcast_S32_S1x32_1) main_v33
  let main_v36 : (⟨S100000x32, .f32⟩ : BufTy).Contents (Elt F) := (broadcastInDim S100000x32 ![0, 1] bcast_S1x32_S100000x32_0_1) main_v35
  let main_v37 : (⟨S100000x32, .f32⟩ : BufTy).Contents (Elt F) := subf main_v30 main_v36
  let main_v38 : (⟨S1x32, .f32⟩ : BufTy).Contents (Elt F) := (broadcastInDim S1x32 ![1] bcast_S32_S1x32_1) main_v5
  let main_v39 : (⟨S100000x32, .f32⟩ : BufTy).Contents (Elt F) := (broadcastInDim S100000x32 ![0, 1] bcast_S1x32_S100000x32_0_1) main_v38
  let main_v40 : (⟨S100000x32, .f32⟩ : BufTy).Contents (Elt F) := mulf main_v39 main_v37
  let main_cst_6 : (⟨S_, .f32⟩ : BufTy).Contents (Elt F) := (constant S_ .f32 0x3727C5AC#32)
  let main_v41 : (⟨S32, .f32⟩ : BufTy).Contents (Elt F) := (broadcastInDim S32 ![] bcast_S_S32) main_cst_6
  let main_v42 : (⟨S32, .f32⟩ : BufTy).Contents (Elt F) := addf main_v34 main_v41
  let main_v43 : (⟨S32, .f32⟩ : BufTy).Contents (Elt F) := Host.rsqrt main_v42
  let main_v44 : (⟨S1x32, .f32⟩ : BufTy).Contents (Elt F) := (broadcastInDim S1x32 ![1] bcast_S32_S1x32_1) main_v43
  let main_v45 : (⟨S100000x32, .f32⟩ : BufTy).Contents (Elt F) := (broadcastInDim S100000x32 ![0, 1] bcast_S1x32_S100000x32_0_1) main_v44
  let main_v46 : (⟨S100000x32, .f32⟩ : BufTy).Contents (Elt F) := mulf main_v40 main_v45
  let main_v47 : (⟨S1x32, .f32⟩ : BufTy).Contents (Elt F) := (broadcastInDim S1x32 ![1] bcast_S32_S1x32_1) main_v7
  let main_v48 : (⟨S100000x32, .f32⟩ : BufTy).Contents (Elt F) := (broadcastInDim S100000x32 ![0, 1] bcast_S1x32_S100000x32_0_1) main_v47
  let main_v49 : (⟨S100000x32, .f32⟩ : BufTy).Contents (Elt F) := addf main_v46 main_v48
  main_v49

def aggB (main_v49 : (⟨S100000x32, .f32⟩ : BufTy).Contents (Elt F)) (main_v67 : (⟨S1600000x1, .i32⟩ : BufTy).Contents (Elt F)) (main_v3 : (⟨S1600000, .i32⟩ : BufTy).Contents (Elt F)) :=
  let main_v68 : (⟨S1600000x32, .f32⟩ : BufTy).Contents (Elt F) := (fun x i => Host.gather gather_S100000x32_S1600000x1_S1600000x32_1_0_n_n_0_1_132 x i) main_v49 main_v67
  let main_cst_9 : (⟨S_, .f32⟩ : BufTy).Contents (Elt F) := (constant S_ .f32 0x00000000#32)
  let main_v69 : (⟨S100000x32, .f32⟩ : BufTy).Contents (Elt F) := (broadcastInDim S100000x32 ![] bcast_S_S100000x32) main_cst_9
  let main_v70 : (⟨S1600000x1, .i32⟩ : BufTy).Contents (Elt F) := (broadcastInDim S1600000x1 ![0] bcast_S1600000_S1600000x1_0) main_v3
  let main_v71 : (⟨S100000x32, .f32⟩ : BufTy).Contents (Elt F) := (fun x i u => Host.scatterAdd scatter_S100000x32_S1600000x1_S1600000x32_1_0_0_1 x i u) main_v69 main_v70 main_v68
  main_v71

def mlpB (main_v49 : (⟨S100000x32, .f32⟩ : BufTy).Contents (Elt F)) (main_v71 : (⟨S100000x32, .f32⟩ : BufTy).Contents (Elt F)) (main_v51 : (⟨S32x32, .f32⟩ : BufTy).Contents (Elt F)) (main_v74 : (⟨S1x32, .f32⟩ : BufTy).Contents (Elt F)) (main_v55 : (⟨S32x32, .f32⟩ : BufTy).Contents (Elt F)) (main_v80 : (⟨S1x32, .f32⟩ : BufTy).Contents (Elt F)) :=
  let main_v72 : (⟨S100000x32, .f32⟩ : BufTy).Contents (Elt F) := addf main_v49 main_v71
  let main_v73 : (⟨S100000x32, .f32⟩ : BufTy).Contents (Elt F) := (fun l r => Host.dotGeneral dot_S100000x32_S32x32_S100000x32_1_0_0_1_n_n none l r) main_v72 main_v51
  let main_v75 : (⟨S100000x32, .f32⟩ : BufTy).Contents (Elt F) := (broadcastInDim S100000x32 ![0, 1] bcast_S1x32_S100000x32_0_1) main_v74
  let main_v76 : (⟨S100000x32, .f32⟩ : BufTy).Contents (Elt F) := addf main_v73 main_v75
  let main_cst_10 : (⟨S_, .f32⟩ : BufTy).Contents (Elt F) := (constant S_ .f32 0x00000000#32)
  let main_v77 : (⟨S100000x32, .f32⟩ : BufTy).Contents (Elt F) := (broadcastInDim S100000x32 ![] bcast_S_S100000x32) main_cst_10
  let main_v78 : (⟨S100000x32, .f32⟩ : BufTy).Contents (Elt F) := maximumf main_v76 main_v77
  let main_v79 : (⟨S100000x32, .f32⟩ : BufTy).Contents (Elt F) := (fun l r => Host.dotGeneral dot_S100000x32_S32x32_S100000x32_1_0_0_1_n_n none l r) main_v78 main_v55
  let main_v81 : (⟨S100000x32, .f32⟩ : BufTy).Contents (Elt F) := (broadcastInDim S100000x32 ![0, 1] bcast_S1x32_S100000x32_0_1) main_v80
  let main_v82 : (⟨S100000x32, .f32⟩ : BufTy).Contents (Elt F) := addf main_v79 main_v81
  let main_cst_11 : (⟨S_, .f32⟩ : BufTy).Contents (Elt F) := (constant S_ .f32 0x00000000#32)
  let main_v83 : (⟨S100000x32, .f32⟩ : BufTy).Contents (Elt F) := (broadcastInDim S100000x32 ![] bcast_S_S100000x32) main_cst_11
  let main_v84 : (⟨S100000x32, .f32⟩ : BufTy).Contents (Elt F) := maximumf main_v82 main_v83
  main_v84

def pool (main_v265 : (⟨S100000x32, .f32⟩ : BufTy).Contents (Elt F)) (main_arg2 : (⟨S100000, .i32⟩ : BufTy).Contents (Elt F)) :=
  let main_cst_43 : (⟨S_, .f32⟩ : BufTy).Contents (Elt F) := (constant S_ .f32 0x3F800000#32)
  let main_v266 : (⟨S100000, .f32⟩ : BufTy).Contents (Elt F) := (broadcastInDim S100000 ![] bcast_S_S100000) main_cst_43
  let main_cst_44 : (⟨S_, .f32⟩ : BufTy).Contents (Elt F) := (constant S_ .f32 0x00000000#32)
  let main_v267 : (⟨S256, .f32⟩ : BufTy).Contents (Elt F) := (broadcastInDim S256 ![] bcast_S_S256) main_cst_44
  let main_v268 : (⟨S100000x1, .i32⟩ : BufTy).Contents (Elt F) := (broadcastInDim S100000x1 ![0] bcast_S100000_S100000x1_0) main_arg2
  let main_v269 : (⟨S256, .f32⟩ : BufTy).Contents (Elt F) := (fun x i u => Host.scatterAdd scatter_S256_S100000x1_S100000_n_0_0_1 x i u) main_v267 main_v268 main_v266
  let main_cst_45 : (⟨S_, .f32⟩ : BufTy).Contents (Elt F) := (constant S_ .f32 0x00000000#32)
  let main_v270 : (⟨S256x32, .f32⟩ : BufTy).Contents (Elt F) := (broadcastInDim S256x32 ![] bcast_S_S256x32) main_cst_45
  let main_v271 : (⟨S100000x1, .i32⟩ : BufTy).Contents (Elt F) := (broadcastInDim S100000x1 ![0] bcast_S100000_S100000x1_0) main_arg2
  let main_v272 : (⟨S256x32, .f32⟩ : BufTy).Contents (Elt F) := (fun x i u => Host.scatterAdd scatter_S256x32_S100000x1_S100000x32_1_0_0_1 x i u) main_v270 main_v271 main_v265
  let main_cst_46 : (⟨S_, .f32⟩ : BufTy).Contents (Elt F) := (constant S_ .f32 0x3F800000#32)
  let main_v273 : (⟨S256, .f32⟩ : BufTy).Contents (Elt F) := (broadcastInDim S256 ![] bcast_S_S256) main_cst_46
  let main_v274 : (⟨S256, .f32⟩ : BufTy).Contents (Elt F) := maximumf main_v269 main_v273
  let main_v275 : (⟨S256x1, .f32⟩ : BufTy).Contents (Elt F) := (broadcastInDim S256x1 ![0] bcast_S256_S256x1_0) main_v274
  let main_v276 : (⟨S256x32, .f32⟩ : BufTy).Contents (Elt F) := (broadcastInDim S256x32 ![0, 1] bcast_S256x1_S256x32_0_1) main_v275
  let main_v277 : (⟨S256x32, .f32⟩ : BufTy).Contents (Elt F) := Host.divf main_v272 main_v276
  main_v277

def readout (main_v277 : (⟨S256x32, .f32⟩ : BufTy).Contents (Elt F)) (main_arg13 : (⟨S32x32, .f32⟩ : BufTy).Contents (Elt F)) (main_v279 : (⟨S1x32, .f32⟩ : BufTy).Contents (Elt F)) (main_arg15 : (⟨S32x10, .f32⟩ : BufTy).Contents (Elt F)) (main_v285 : (⟨S1x10, .f32⟩ : BufTy).Contents (Elt F)) :=
  let main_v278 : (⟨S256x32, .f32⟩ : BufTy).Contents (Elt F) := (fun l r => Host.dotGeneral dot_S256x32_S32x32_S256x32_1_0_0_1_n_n none l r) main_v277 main_arg13
  let main_v280 : (⟨S256x32, .f32⟩ : BufTy).Contents (Elt F) := (broadcastInDim S256x32 ![0, 1] bcast_S1x32_S256x32_0_1) main_v279
  let main_v281 : (⟨S256x32, .f32⟩ : BufTy).Contents (Elt F) := addf main_v278 main_v280
  let main_cst_47 : (⟨S_, .f32⟩ : BufTy).Contents (Elt F) := (constant S_ .f32 0x00000000#32)
  let main_v282 : (⟨S256x32, .f32⟩ : BufTy).Contents (Elt F) := (broadcastInDim S256x32 ![] bcast_S_S256x32) main_cst_47
  let main_v283 : (⟨S256x32, .f32⟩ : BufTy).Contents (Elt F) := maximumf main_v281 main_v282
  let main_v284 : (⟨S256x10, .f32⟩ : BufTy).Contents (Elt F) := (fun l r => Host.dotGeneral dot_S256x32_S32x10_S256x10_1_0_0_1_n_n none l r) main_v283 main_arg15
  let main_v286 : (⟨S256x10, .f32⟩ : BufTy).Contents (Elt F) := (broadcastInDim S256x10 ![0, 1] bcast_S1x10_S256x10_0_1) main_v285
  let main_v287 : (⟨S256x10, .f32⟩ : BufTy).Contents (Elt F) := addf main_v284 main_v286
  let main_call5_cst : (⟨S_, .f32⟩ : BufTy).Contents (Elt F) := (constant S_ .f32 0xFF800000#32)
  let main_call5_v0 : (⟨S256, .f32⟩ : BufTy).Contents (Elt F) := (fun x v => Host.reduce FloatOps.maximumf x v reducesTo_S256x10_S256_d1 h_S_) main_v287 main_call5_cst
  let main_call5_cst_0 : (⟨S_, .f32⟩ : BufTy).Contents (Elt F) := (constant S_ .f32 0xFF800000#32)
  let main_call5_v1 : (⟨S256, .f32⟩ : BufTy).Contents (Elt F) := (broadcastInDim S256 ![] bcast_S_S256) main_call5_cst_0
  let main_call5_v2 : (⟨S256, .f32⟩ : BufTy).Contents (Elt F) := maximumf main_call5_v1 main_call5_v0
  let main_call5_v3 : (⟨S256x1, .f32⟩ : BufTy).Contents (Elt F) := (broadcastInDim S256x1 ![0] bcast_S256_S256x1_0) main_call5_v2
  let main_call5_v4 : (⟨S256x10, .f32⟩ : BufTy).Contents (Elt F) := (broadcastInDim S256x10 ![0, 1] bcast_S256x1_S256x10_0_1) main_call5_v3
  let main_call5_v5 : (⟨S256x10, .f32⟩ : BufTy).Contents (Elt F) := subf main_v287 main_call5_v4
  let main_call5_v6 : (⟨S256x10, .f32⟩ : BufTy).Contents (Elt F) := Host.exp main_call5_v5
  let main_call5_cst_1 : (⟨S_, .f32⟩ : BufTy).Contents (Elt F) := (constant S_ .f32 0x00000000#32)
  let main_call5_v7 : (⟨S256, .f32⟩ : BufTy).Contents (Elt F) := (fun x v => Host.reduceAdd x v reducesTo_S256x10_S256_d1 h_S_) main_call5_v6 main_call5_cst_1
  let main_call5_v8 : (⟨S256x1, .f32⟩ : BufTy).Contents (Elt F) := (broadcastInDim S256x1 ![0] bcast_S256_S256x1_0) main_call5_v7
  let main_call5_v9 : (⟨S256x1, .f32⟩ : BufTy).Contents (Elt F) := Host.log main_call5_v8
  let main_call5_v10 : (⟨S256x10, .f32⟩ : BufTy).Contents (Elt F) := (broadcastInDim S256x10 ![0, 1] bcast_S256x1_S256x10_0_1) main_call5_v9
  let main_v288 : (⟨S256x10, .f32⟩ : BufTy).Contents (Elt F) := subf main_call5_v5 main_call5_v10
  main_v288

def src (main_arg1 : (⟨S2x1600000, .i32⟩ : BufTy).Contents (Elt F)) :=
  let main_v0 : (⟨S1x1600000, .i32⟩ : BufTy).Contents (Elt F) := (extractStridedSlice S1x1600000 ![0, 0] · slices_S2x1600000_S1x1600000_0_0) main_arg1
  let main_v1 : (⟨S1600000, .i32⟩ : BufTy).Contents (Elt F) := shapeCast S1600000 main_v0 shapeCasts_S1x1600000_S1600000
  main_v1

def dst (main_arg1 : (⟨S2x1600000, .i32⟩ : BufTy).Contents (Elt F)) :=
  let main_v2 : (⟨S1x1600000, .i32⟩ : BufTy).Contents (Elt F) := (extractStridedSlice S1x1600000 ![1, 0] · slices_S2x1600000_S1x1600000_1_0) main_arg1
  let main_v3 : (⟨S1600000, .i32⟩ : BufTy).Contents (Elt F) := shapeCast S1600000 main_v2 shapeCasts_S1x1600000_S1600000
  main_v3

def g0 (main_arg11 : (⟨S5x32, .f32⟩ : BufTy).Contents (Elt F)) :=
  let main_v4 : (⟨S1x32, .f32⟩ : BufTy).Contents (Elt F) := (extractStridedSlice S1x32 ![0, 0] · slices_S5x32_S1x32_0_0) main_arg11
  let main_v5 : (⟨S32, .f32⟩ : BufTy).Contents (Elt F) := shapeCast S32 main_v4 shapeCasts_S1x32_S32
  main_v5

def be0 (main_arg12 : (⟨S5x32, .f32⟩ : BufTy).Contents (Elt F)) :=
  let main_v6 : (⟨S1x32, .f32⟩ : BufTy).Contents (Elt F) := (extractStridedSlice S1x32 ![0, 0] · slices_S5x32_S1x32_0_0) main_arg12
  let main_v7 : (⟨S32, .f32⟩ : BufTy).Contents (Elt F) := shapeCast S32 main_v6 shapeCasts_S1x32_S32
  main_v7

def wa1 (main_arg7 : (⟨S4x32x32, .f32⟩ : BufTy).Contents (Elt F)) :=
  let main_v50 : (⟨S1x32x32, .f32⟩ : BufTy).Contents (Elt F) := (extractStridedSlice S1x32x32 ![0, 0, 0] · slices_S4x32x32_S1x32x32_0_0_0) main_arg7
  let main_v51 : (⟨S32x32, .f32⟩ : BufTy).Contents (Elt F) := shapeCast S32x32 main_v50 shapeCasts_S1x32x32_S32x32
  main_v51

def ba1 (main_arg8 : (⟨S4x32, .f32⟩ : BufTy).Contents (Elt F)) :=
  let main_v52 : (⟨S1x32, .f32⟩ : BufTy).Contents (Elt F) := (extractStridedSlice S1x32 ![0, 0] · slices_S4x32_S1x32_0_0) main_arg8
  let main_v53 : (⟨S32, .f32⟩ : BufTy).Contents (Elt F) := shapeCast S32 main_v52 shapeCasts_S1x32_S32
  main_v53

def wb1 (main_arg9 : (⟨S4x32x32, .f32⟩ : BufTy).Contents (Elt F)) :=
  let main_v54 : (⟨S1x32x32, .f32⟩ : BufTy).Contents (Elt F) := (extractStridedSlice S1x32x32 ![0, 0, 0] · slices_S4x32x32_S1x32x32_0_0_0) main_arg9
  let main_v55 : (⟨S32x32, .f32⟩ : BufTy).Contents (Elt F) := shapeCast S32x32 main_v54 shapeCasts_S1x32x32_S32x32
  main_v55

def bb1 (main_arg10 : (⟨S4x32, .f32⟩ : BufTy).Contents (Elt F)) :=
  let main_v56 : (⟨S1x32, .f32⟩ : BufTy).Contents (Elt F) := (extractStridedSlice S1x32 ![0, 0] · slices_S4x32_S1x32_0_0) main_arg10
  let main_v57 : (⟨S32, .f32⟩ : BufTy).Contents (Elt F) := shapeCast S32 main_v56 shapeCasts_S1x32_S32
  main_v57

def g1 (main_arg11 : (⟨S5x32, .f32⟩ : BufTy).Contents (Elt F)) :=
  let main_v58 : (⟨S1x32, .f32⟩ : BufTy).Contents (Elt F) := (extractStridedSlice S1x32 ![1, 0] · slices_S5x32_S1x32_1_0) main_arg11
  let main_v59 : (⟨S32, .f32⟩ : BufTy).Contents (Elt F) := shapeCast S32 main_v58 shapeCasts_S1x32_S32
  main_v59

def be1 (main_arg12 : (⟨S5x32, .f32⟩ : BufTy).Contents (Elt F)) :=
  let main_v60 : (⟨S1x32, .f32⟩ : BufTy).Contents (Elt F) := (extractStridedSlice S1x32 ![1, 0] · slices_S5x32_S1x32_1_0) main_arg12
  let main_v61 : (⟨S32, .f32⟩ : BufTy).Contents (Elt F) := shapeCast S32 main_v60 shapeCasts_S1x32_S32
  main_v61

def wa2 (main_arg7 : (⟨S4x32x32, .f32⟩ : BufTy).Contents (Elt F)) :=
  let main_v104 : (⟨S1x32x32, .f32⟩ : BufTy).Contents (Elt F) := (extractStridedSlice S1x32x32 ![1, 0, 0] · slices_S4x32x32_S1x32x32_1_0_0) main_arg7
  let main_v105 : (⟨S32x32, .f32⟩ : BufTy).Contents (Elt F) := shapeCast S32x32 main_v104 shapeCasts_S1x32x32_S32x32
  main_v105

def ba2 (main_arg8 : (⟨S4x32, .f32⟩ : BufTy).Contents (Elt F)) :=
  let main_v106 : (⟨S1x32, .f32⟩ : BufTy).Contents (Elt F) := (extractStridedSlice S1x32 ![1, 0] · slices_S4x32_S1x32_1_0) main_arg8
  let main_v107 : (⟨S32, .f32⟩ : BufTy).Contents (Elt F) := shapeCast S32 main_v106 shapeCasts_S1x32_S32
  main_v107

def wb2 (main_arg9 : (⟨S4x32x32, .f32⟩ : BufTy).Contents (Elt F)) :=
  let main_v108 : (⟨S1x32x32, .f32⟩ : BufTy).Contents (Elt F) := (extractStridedSlice S1x32x32 ![1, 0, 0] · slices_S4x32x32_S1x32x32_1_0_0) main_arg9
  let main_v109 : (⟨S32x32, .f32⟩ : BufTy).Contents (Elt F) := shapeCast S32x32 main_v108 shapeCasts_S1x32x32_S32x32
  main_v109

def bb2 (main_arg10 : (⟨S4x32, .f32⟩ : BufTy).Contents (Elt F)) :=
  let main_v110 : (⟨S1x32, .f32⟩ : BufTy).Contents (Elt F) := (extractStridedSlice S1x32 ![1, 0] · slices_S4x32_S1x32_1_0) main_arg10
  let main_v111 : (⟨S32, .f32⟩ : BufTy).Contents (Elt F) := shapeCast S32 main_v110 shapeCasts_S1x32_S32
  main_v111

def g2 (main_arg11 : (⟨S5x32, .f32⟩ : BufTy).Contents (Elt F)) :=
  let main_v112 : (⟨S1x32, .f32⟩ : BufTy).Contents (Elt F) := (extractStridedSlice S1x32 ![2, 0] · slices_S5x32_S1x32_2_0) main_arg11
  let main_v113 : (⟨S32, .f32⟩ : BufTy).Contents (Elt F) := shapeCast S32 main_v112 shapeCasts_S1x32_S32
  main_v113

def be2 (main_arg12 : (⟨S5x32, .f32⟩ : BufTy).Contents (Elt F)) :=
  let main_v114 : (⟨S1x32, .f32⟩ : BufTy).Contents (Elt F) := (extractStridedSlice S1x32 ![2, 0] · slices_S5x32_S1x32_2_0) main_arg12
  let main_v115 : (⟨S32, .f32⟩ : BufTy).Contents (Elt F) := shapeCast S32 main_v114 shapeCasts_S1x32_S32
  main_v115

def wa3 (main_arg7 : (⟨S4x32x32, .f32⟩ : BufTy).Contents (Elt F)) :=
  let main_v158 : (⟨S1x32x32, .f32⟩ : BufTy).Contents (Elt F) := (extractStridedSlice S1x32x32 ![2, 0, 0] · slices_S4x32x32_S1x32x32_2_0_0) main_arg7
  let main_v159 : (⟨S32x32, .f32⟩ : BufTy).Contents (Elt F) := shapeCast S32x32 main_v158 shapeCasts_S1x32x32_S32x32
  main_v159

def ba3 (main_arg8 : (⟨S4x32, .f32⟩ : BufTy).Contents (Elt F)) :=
  let main_v160 : (⟨S1x32, .f32⟩ : BufTy).Contents (Elt F) := (extractStridedSlice S1x32 ![2, 0] · slices_S4x32_S1x32_2_0) main_arg8
  let main_v161 : (⟨S32, .f32⟩ : BufTy).Contents (Elt F) := shapeCast S32 main_v160 shapeCasts_S1x32_S32
  main_v161

def wb3 (main_arg9 : (⟨S4x32x32, .f32⟩ : BufTy).Contents (Elt F)) :=
  let main_v162 : (⟨S1x32x32, .f32⟩ : BufTy).Contents (Elt F) := (extractStridedSlice S1x32x32 ![2, 0, 0] · slices_S4x32x32_S1x32x32_2_0_0) main_arg9
  let main_v163 : (⟨S32x32, .f32⟩ : BufTy).Contents (Elt F) := shapeCast S32x32 main_v162 shapeCasts_S1x32x32_S32x32
  main_v163

def bb3 (main_arg10 : (⟨S4x32, .f32⟩ : BufTy).Contents (Elt F)) :=
  let main_v164 : (⟨S1x32, .f32⟩ : BufTy).Contents (Elt F) := (extractStridedSlice S1x32 ![2, 0] · slices_S4x32_S1x32_2_0) main_arg10
  let main_v165 : (⟨S32, .f32⟩ : BufTy).Contents (Elt F) := shapeCast S32 main_v164 shapeCasts_S1x32_S32
  main_v165

def g3 (main_arg11 : (⟨S5x32, .f32⟩ : BufTy).Contents (Elt F)) :=
  let main_v166 : (⟨S1x32, .f32⟩ : BufTy).Contents (Elt F) := (extractStridedSlice S1x32 ![3, 0] · slices_S5x32_S1x32_3_0) main_arg11
  let main_v167 : (⟨S32, .f32⟩ : BufTy).Contents (Elt F) := shapeCast S32 main_v166 shapeCasts_S1x32_S32
  main_v167

def be3 (main_arg12 : (⟨S5x32, .f32⟩ : BufTy).Contents (Elt F)) :=
  let main_v168 : (⟨S1x32, .f32⟩ : BufTy).Contents (Elt F) := (extractStridedSlice S1x32 ![3, 0] · slices_S5x32_S1x32_3_0) main_arg12
  let main_v169 : (⟨S32, .f32⟩ : BufTy).Contents (Elt F) := shapeCast S32 main_v168 shapeCasts_S1x32_S32
  main_v169

def wa4 (main_arg7 : (⟨S4x32x32, .f32⟩ : BufTy).Contents (Elt F)) :=
  let main_v212 : (⟨S1x32x32, .f32⟩ : BufTy).Contents (Elt F) := (extractStridedSlice S1x32x32 ![3, 0, 0] · slices_S4x32x32_S1x32x32_3_0_0) main_arg7
  let main_v213 : (⟨S32x32, .f32⟩ : BufTy).Contents (Elt F) := shapeCast S32x32 main_v212 shapeCasts_S1x32x32_S32x32
  main_v213

def ba4 (main_arg8 : (⟨S4x32, .f32⟩ : BufTy).Contents (Elt F)) :=
  let main_v214 : (⟨S1x32, .f32⟩ : BufTy).Contents (Elt F) := (extractStridedSlice S1x32 ![3, 0] · slices_S4x32_S1x32_3_0) main_arg8
  let main_v215 : (⟨S32, .f32⟩ : BufTy).Contents (Elt F) := shapeCast S32 main_v214 shapeCasts_S1x32_S32
  main_v215

def wb4 (main_arg9 : (⟨S4x32x32, .f32⟩ : BufTy).Contents (Elt F)) :=
  let main_v216 : (⟨S1x32x32, .f32⟩ : BufTy).Contents (Elt F) := (extractStridedSlice S1x32x32 ![3, 0, 0] · slices_S4x32x32_S1x32x32_3_0_0) main_arg9
  let main_v217 : (⟨S32x32, .f32⟩ : BufTy).Contents (Elt F) := shapeCast S32x32 main_v216 shapeCasts_S1x32x32_S32x32
  main_v217

def bb4 (main_arg10 : (⟨S4x32, .f32⟩ : BufTy).Contents (Elt F)) :=
  let main_v218 : (⟨S1x32, .f32⟩ : BufTy).Contents (Elt F) := (extractStridedSlice S1x32 ![3, 0] · slices_S4x32_S1x32_3_0) main_arg10
  let main_v219 : (⟨S32, .f32⟩ : BufTy).Contents (Elt F) := shapeCast S32 main_v218 shapeCasts_S1x32_S32
  main_v219

def g4 (main_arg11 : (⟨S5x32, .f32⟩ : BufTy).Contents (Elt F)) :=
  let main_v220 : (⟨S1x32, .f32⟩ : BufTy).Contents (Elt F) := (extractStridedSlice S1x32 ![4, 0] · slices_S5x32_S1x32_4_0) main_arg11
  let main_v221 : (⟨S32, .f32⟩ : BufTy).Contents (Elt F) := shapeCast S32 main_v220 shapeCasts_S1x32_S32
  main_v221

def be4 (main_arg12 : (⟨S5x32, .f32⟩ : BufTy).Contents (Elt F)) :=
  let main_v222 : (⟨S1x32, .f32⟩ : BufTy).Contents (Elt F) := (extractStridedSlice S1x32 ![4, 0] · slices_S5x32_S1x32_4_0) main_arg12
  let main_v223 : (⟨S32, .f32⟩ : BufTy).Contents (Elt F) := shapeCast S32 main_v222 shapeCasts_S1x32_S32
  main_v223

abbrev row32 (v : (⟨S32, .f32⟩ : BufTy).Contents (Elt F)) : (⟨S1x32, .f32⟩ : BufTy).Contents (Elt F) := broadcastInDim S1x32 ![1] bcast_S32_S1x32_1 v
abbrev row10 (v : (⟨S10, .f32⟩ : BufTy).Contents (Elt F)) : (⟨S1x10, .f32⟩ : BufTy).Contents (Elt F) := broadcastInDim S1x10 ![1] bcast_S10_S1x10_1 v

def layerA (x : (⟨S100000x64, .f32⟩ : BufTy).Contents (Elt F)) (src dst : (⟨S1600000, .i32⟩ : BufTy).Contents (Elt F)) (w1 : (⟨S64x32, .f32⟩ : BufTy).Contents (Elt F)) (b1 : (⟨S32, .f32⟩ : BufTy).Contents (Elt F)) (w2 : (⟨S32x32, .f32⟩ : BufTy).Contents (Elt F)) (b2 g b : (⟨S32, .f32⟩ : BufTy).Contents (Elt F)) : (⟨S100000x32, .f32⟩ : BufTy).Contents (Elt F) :=
  let z := mlpA x (aggA x (idx src) dst) w1 (row32 b1) w2 (row32 b2)
  bnApply z (mean z) (var z) g b
def layerB (h : (⟨S100000x32, .f32⟩ : BufTy).Contents (Elt F)) (src dst : (⟨S1600000, .i32⟩ : BufTy).Contents (Elt F)) (w1 : (⟨S32x32, .f32⟩ : BufTy).Contents (Elt F)) (b1 : (⟨S32, .f32⟩ : BufTy).Contents (Elt F)) (w2 : (⟨S32x32, .f32⟩ : BufTy).Contents (Elt F)) (b2 g b : (⟨S32, .f32⟩ : BufTy).Contents (Elt F)) : (⟨S100000x32, .f32⟩ : BufTy).Contents (Elt F) :=
  let z := mlpB h (aggB h (idx src) dst) w1 (row32 b1) w2 (row32 b2)
  bnApply z (mean z) (var z) g b

def net (x : (⟨S100000x64, .f32⟩ : BufTy).Contents (Elt F)) (ei : (⟨S2x1600000, .i32⟩ : BufTy).Contents (Elt F)) (batch : (⟨S100000, .i32⟩ : BufTy).Contents (Elt F)) (w1a : (⟨S64x32, .f32⟩ : BufTy).Contents (Elt F)) (b1a : (⟨S32, .f32⟩ : BufTy).Contents (Elt F)) (w1b : (⟨S32x32, .f32⟩ : BufTy).Contents (Elt F)) (b1b : (⟨S32, .f32⟩ : BufTy).Contents (Elt F)) (wa : (⟨S4x32x32, .f32⟩ : BufTy).Contents (Elt F)) (ba : (⟨S4x32, .f32⟩ : BufTy).Contents (Elt F)) (wb : (⟨S4x32x32, .f32⟩ : BufTy).Contents (Elt F)) (bb : (⟨S4x32, .f32⟩ : BufTy).Contents (Elt F)) (gamma beta : (⟨S5x32, .f32⟩ : BufTy).Contents (Elt F)) (fc1w : (⟨S32x32, .f32⟩ : BufTy).Contents (Elt F)) (fc1b : (⟨S32, .f32⟩ : BufTy).Contents (Elt F)) (fc2w : (⟨S32x10, .f32⟩ : BufTy).Contents (Elt F)) (fc2b : (⟨S10, .f32⟩ : BufTy).Contents (Elt F)) : (⟨S256x10, .f32⟩ : BufTy).Contents (Elt F) :=
  let h1 := layerA x (src ei) (dst ei) w1a b1a w1b b1b (g0 gamma) (be0 beta)
  let h2 := layerB h1 (src ei) (dst ei) (wa1 wa) (ba1 ba) (wb1 wb) (bb1 bb) (g1 gamma) (be1 beta)
  let h3 := layerB h2 (src ei) (dst ei) (wa2 wa) (ba2 ba) (wb2 wb) (bb2 bb) (g2 gamma) (be2 beta)
  let h4 := layerB h3 (src ei) (dst ei) (wa3 wa) (ba3 ba) (wb3 wb) (bb3 bb) (g3 gamma) (be3 beta)
  let h5 := layerB h4 (src ei) (dst ei) (wa4 wa) (ba4 ba) (wb4 wb) (bb4 bb) (g4 gamma) (be4 beta)
  readout (pool h5 batch) fc1w (row32 fc1b) fc2w (row10 fc2b)

end Cert.Gin.Spec

end
-- ==== Proof.KRows.lean ====
import proofs.«430980_j44702019616883_2_alg».proof.Proof.Spec
import proofs.«430980_j44702019616883_2_alg».proof.Proof.Gen.KernelIdeal
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

noncomputable section

namespace Cert.Gin.KRows

open Idealize.ShloMosaic Idealize.ShloMosaic.ValueIdx

abbrev V32 : Shape := ⟨1, ![32]⟩
abbrev R32 : Shape := ⟨2, ![1, 32]⟩
abbrev Sc : Shape := ⟨0, ![]⟩

section Any
variable {α : Type} {a : ℕ}

-- A vector broadcast along a new leading unit axis reads, at (u, i), the vector at i.
theorem row_apply (hb : (⟨1, ![a]⟩ : Shape).BroadcastsInDim ⟨2, ![1, a]⟩ ![1]) (v : (⟨1, ![a]⟩ : Shape).Idx → α)
    (u : Fin 1) (i : Fin a) : broadcastInDim ⟨2, ![1, a]⟩ ![1] hb v (ix2 u i) = v (ix1 i) :=
  broadcastInDim_apply _ hb v _ _ fun b => by
    match b with
    | ⟨0, _⟩ =>
      show i.val = if a = 1 then 0 else i.val
      split
      · have := i.isLt; omega
      · rfl

-- The cast of a vector to a one-row matrix keeps the row-major position, so it is that broadcast.
theorem reshape_row (hc : (⟨1, ![a]⟩ : Shape).ShapeCasts ⟨2, ![1, a]⟩)
    (hb : (⟨1, ![a]⟩ : Shape).BroadcastsInDim ⟨2, ![1, a]⟩ ![1]) (v : (⟨1, ![a]⟩ : Shape).Idx → α) :
    shapeCast ⟨2, ![1, a]⟩ v hc = broadcastInDim ⟨2, ![1, a]⟩ ![1] hb v := by
  funext j
  obtain ⟨u, i, rfl⟩ : ∃ u i, j = ix2 u i := ⟨j 0, j 1, eq_ix2 j⟩
  rw [shapeCast_a_1a_apply, row_apply]

theorem splat_row (hb : V32.BroadcastsInDim R32 ![1]) (h0 : Sc.BroadcastsInDim R32 ![]) (h1 : Sc.BroadcastsInDim V32 ![])
    (s : Sc.Idx → α) :
    broadcastInDim R32 ![] h0 s = broadcastInDim R32 ![1] hb (broadcastInDim V32 ![] h1 s) := by
  funext j
  obtain ⟨u, i, rfl⟩ : ∃ u i, j = ix2 u i := ⟨j 0, j 1, eq_ix2 j⟩
  rw [broadcastInDim_scalar_apply, row_apply, broadcastInDim_scalar_apply]

theorem select_row (hb : V32.BroadcastsInDim R32 ![1]) (h0 : Sc.BroadcastsInDim R32 ![]) (h1 : Sc.BroadcastsInDim V32 ![])
    (p : Sc.Idx → BitVec 1) (x y : V32.Idx → α) :
    select (broadcastInDim R32 ![] h0 p) (broadcastInDim R32 ![1] hb x) (broadcastInDim R32 ![1] hb y)
      = broadcastInDim R32 ![1] hb (select (broadcastInDim V32 ![] h1 p) x y) := by
  funext j
  obtain ⟨u, i, rfl⟩ : ∃ u i, j = ix2 u i := ⟨j 0, j 1, eq_ix2 j⟩
  rw [select_apply, broadcastInDim_scalar_apply, row_apply, row_apply, row_apply, select_apply, broadcastInDim_scalar_apply]

end Any

theorem divf_row (hb : V32.BroadcastsInDim R32 ![1]) (x y : FVec Ideal V32 .f32) :
    Host.divf (broadcastInDim R32 ![1] hb x) (broadcastInDim R32 ![1] hb y)
      = broadcastInDim R32 ![1] hb (Host.divf x y) := by
  funext j
  obtain ⟨u, i, rfl⟩ : ∃ u i, j = ix2 u i := ⟨j 0, j 1, eq_ix2 j⟩
  rw [row_apply]
  show FloatOps.hostDivf (broadcastInDim R32 ![1] hb x (ix2 u i)) (broadcastInDim R32 ![1] hb y (ix2 u i)) = FloatOps.hostDivf (x (ix1 i)) (y (ix1 i))
  rw [row_apply, row_apply]

theorem mean_tail (hb : V32.BroadcastsInDim R32 ![1]) (h0 : Sc.BroadcastsInDim R32 ![]) (h1 : Sc.BroadcastsInDim V32 ![])
    (s0 : FVec Ideal V32 .f32) (k : FVec Ideal Sc .f32) :
    Host.divf (broadcastInDim R32 ![1] hb s0) (broadcastInDim R32 ![] h0 k)
      = broadcastInDim R32 ![1] hb (Host.divf s0 (broadcastInDim V32 ![] h1 k)) := by
  rw [splat_row hb h0 h1 k, divf_row]

theorem var_tail (hb : V32.BroadcastsInDim R32 ![1]) (h0 : Sc.BroadcastsInDim R32 ![]) (h1 : Sc.BroadcastsInDim V32 ![])
    (p : Sc.Idx → BitVec 1) (s1 : FVec Ideal V32 .f32) (n q : FVec Ideal Sc .f32) :
    select (broadcastInDim R32 ![] h0 p) (Host.divf (broadcastInDim R32 ![1] hb s1) (broadcastInDim R32 ![] h0 n))
        (broadcastInDim R32 ![] h0 q)
      = broadcastInDim R32 ![1] hb
          (select (broadcastInDim V32 ![] h1 p) (Host.divf s1 (broadcastInDim V32 ![] h1 n)) (broadcastInDim V32 ![] h1 q)) := by
  rw [splat_row hb h0 h1 n, splat_row hb h0 h1 q, divf_row, select_row hb h0 h1]

section Kernel
open Cert.KernelIdeal Cert.KernelIdeal.Facts₀

theorem reshape_row32 (v : FVec Ideal S32 .f32) :
    shapeCast S1x32 v shapeCasts_S32_S1x32 = Spec.row32 (F := Ideal) v :=
  reshape_row _ _ v

def meanK (z : FVec Ideal S100000x32 .f32) : FVec Ideal S1x32 .f32 :=
  let zero : FVec Ideal S_ .f32 := constant (F := Ideal) S_ .f32 0x00000000#32
  let s0 : FVec Ideal S32 .f32 := Host.reduceAdd (F := Ideal) z zero reducesTo_S100000x32_S32_d0 h_S_
  let r0 : FVec Ideal S1x32 .f32 := broadcastInDim S1x32 ![1] bcast_S32_S1x32_1 s0
  let cnt : FVec Ideal S_ .f32 := constant (F := Ideal) S_ .f32 0x47C35000#32
  let rc : FVec Ideal S1x32 .f32 := broadcastInDim S1x32 ![] bcast_S_S1x32 cnt
  Host.divf (F := Ideal) r0 rc

def varK (z : FVec Ideal S100000x32 .f32) : FVec Ideal S1x32 .f32 :=
  let mu : FVec Ideal S100000x32 .f32 := broadcastInDim S100000x32 ![0, 1] bcast_S1x32_S100000x32_0_1 (meanK z)
  let d : FVec Ideal S100000x32 .f32 := subf (F := Ideal) z mu
  let sq : FVec Ideal S100000x32 .f32 := mulf (F := Ideal) d d
  let corr : FVec Ideal S_ .f32 := sitofp (F := Ideal) .f32 (constantI S_ 32 0#32)
  let cnt : FVec Ideal S_ .f32 := constant (F := Ideal) S_ .f32 0x47C35000#32
  let n : FVec Ideal S_ .f32 := subf (F := Ideal) cnt corr
  let zero : FVec Ideal S_ .f32 := constant (F := Ideal) S_ .f32 0x00000000#32
  let s1 : FVec Ideal S32 .f32 := Host.reduceAdd (F := Ideal) sq zero reducesTo_S100000x32_S32_d0 h_S_
  let r1 : FVec Ideal S1x32 .f32 := broadcastInDim S1x32 ![1] bcast_S32_S1x32_1 s1
  let rn : FVec Ideal S1x32 .f32 := broadcastInDim S1x32 ![] bcast_S_S1x32 n
  let q : FVec Ideal S1x32 .f32 := Host.divf (F := Ideal) r1 rn
  let p : IVec S_ 1 := cmpf (F := Ideal) .ogt n zero
  let fill : FVec Ideal S_ .f32 := id (constant (F := Ideal) S_ .f32 0x7FC00000#32)
  let rfill : FVec Ideal S1x32 .f32 := broadcastInDim S1x32 ![] bcast_S_S1x32 fill
  select (broadcastInDim S1x32 ![] bcast_S_S1x32 p) q rfill

theorem meanK_eq (z : FVec Ideal S100000x32 .f32) :
    meanK z = Spec.row32 (Spec.mean (F := Ideal) z) := by
  unfold meanK Spec.mean
  exact mean_tail _ _ Cert.ReferenceIdeal.Facts₀.bcast_S_S32 _ _

theorem varK_eq (z : FVec Ideal S100000x32 .f32) :
    varK z = Spec.row32 (Spec.var (F := Ideal) z) := by
  unfold varK Spec.var
  exact var_tail _ _ Cert.ReferenceIdeal.Facts₀.bcast_S_S32 _ _ _ _

end Kernel

end Cert.Gin.KRows

end
-- ==== Proof.KKeep.lean ====
import proofs.«430980_j44702019616883_2_alg».proof.Proof.Gen.KernelIdeal
import Idealize.ShloMosaic.Lib.StableHlo.Run

noncomputable section

namespace Cert.KernelIdeal.KKeep

open Cert.KernelIdeal Idealize.ShloMosaic Idealize.ShloMosaic.TcCoe Idealize.ShloMosaic.StableHlo

-- What every layer reads and no layer writes: the two index rows and the arguments used after the first layer.
abbrev kept : List (Ref sig .tc) :=
  [main_v1, main_v3, main_arg2, main_arg7, main_arg8, main_arg9, main_arg10, main_arg11, main_arg12, main_arg13,
    main_arg14, main_arg15, main_arg16]

variable {Val : EltTy → Type} {K : List (Ref sig .tc)} {r : Ref sig .tc} {o1 o2 o3 : List (HloOp τ sig Val)}

-- No operation of the line writes a reference of K.
abbrev Keeps (K : List (Ref sig .tc)) (ops : List (HloOp τ sig Val)) : Prop :=
  ops.Forall fun op => ∀ r ∈ K, Proc.devRef (τ := τ) .tc r ∉ op.writes

theorem after_of_keeps (V : Valuation τ sig Val) (h : Keeps K o1) (hr : r ∈ K) : after o1 V r = V r :=
  after_of_forall_not_mem o1 V fun op hop => List.forall_iff_forall_mem.mp h op hop r hr

-- Three lines run in a row keep a reference that none of them writes.
theorem after3_of (V : Valuation τ sig Val) (h1 : Keeps K o1) (h2 : Keeps K o2) (h3 : Keeps K o3) (hr : r ∈ K) :
    after o3 (after o2 (after o1 V)) r = V r :=
  (after_of_keeps _ h3 hr).trans ((after_of_keeps _ h2 hr).trans (after_of_keeps V h1 hr))

end Cert.KernelIdeal.KKeep

end
-- ==== Proof.PreSrc.lean ====
import proofs.«430980_j44702019616883_2_alg».proof.Defs
import proofs.«430980_j44702019616883_2_alg».proof.Proof.Gen.KernelIdeal
import proofs.«430980_j44702019616883_2_alg».proof.Proof.Gen.Pre_finite_inputs
import proofs.«430980_j44702019616883_2_alg».proof.Proof.Spec
import Idealize.ShloMosaic.Lib.ReduceAll
import Idealize.ShloMosaic.Lib.Affine

noncomputable section

namespace Cert.Gin.PreSrc

open Idealize.ShloMosaic Idealize.SL.Sem Cert.KernelIdeal Cert.KernelIdeal.Facts₀

theorem toInt_zero : (0#32 : BitVec 32).toInt = 0 := by decide
theorem toInt_shift : (100000#32 : BitVec 32).toInt = 100000 := by decide

-- A word in [-100000, 100000), with 100000 added when it is negative, lies in [0, 99999].
theorem norm_word (x : BitVec 32) (h : -100000 ≤ x.toInt ∧ x.toInt < 100000) :
    0 ≤ (Scalar.select (IntOp.cmpi .slt x 0#32) (IntOp.addi x 100000#32) x).toInt ∧
      (Scalar.select (IntOp.cmpi .slt x 0#32) (IntOp.addi x 100000#32) x).toInt ≤ 99999 := by
  obtain ⟨hlo, hhi⟩ := h
  unfold Scalar.select
  by_cases hneg : x.toInt < 0
  · have hc : IntOp.cmpi .slt x 0#32 = 1 := IntOp.cmpi_slt.2 (by rw [toInt_zero]; exact hneg)
    rw [if_pos hc]
    unfold IntOp.addi
    rw [BitVec.toInt_add, toInt_shift]
    have e : (x.toInt + 100000).bmod (2 ^ 32) = x.toInt + 100000 := by
      apply Int.bmod_eq_of_le <;> omega
    rw [e]; omega
  · have hc : ¬ IntOp.cmpi .slt x 0#32 = 1 := fun hc =>
      hneg (by have := IntOp.cmpi_slt.1 hc; rwa [toInt_zero] at this)
    rw [if_neg hc]; omega

theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

def InRange (s : IVec S1600000 32) : Prop := ∀ e, -100000 ≤ (s e).toInt ∧ (s e).toInt < 100000

-- The index vector with 100000 added to its negative entries.
def norm (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

-- The test 0 ≤ · ≤ 99999 of the shifted index vector, entry by entry.
def mask (s : IVec S1600000 32) : IVec S1600000 1 :=
  Host.reduce IntOp.andi
    (andi
      (cmpi .sge (broadcastInDim S1600000x1 ![0] bcast_S1600000_S1600000x1_0 (norm s))
        (broadcastInDim S1600000x1 ![] bcast_S_S1600000x1 (constantI S_ 32 0#32)))
      (cmpi .sle (broadcastInDim S1600000x1 ![0] bcast_S1600000_S1600000x1_0 (norm s))
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

-- In range a shifted entry lies in [0, 99999], so both comparisons hold of it.
theorem test_one (s : IVec S1600000 32) (h : InRange s) (e : S1600000.Idx) :
    IntOp.andi (IntOp.cmpi .sge (norm s e) 0#32) (IntOp.cmpi .sle (norm s e) 99999#32) = 1#1 := by
  rw [IntOp.andi_eq_one, IntOp.cmpi_sge, IntOp.cmpi_sle, toInt_zero, show (99999#32 : BitVec 32).toInt = 99999 from by decide]
  exact norm_word (s e) (h e)

theorem mask_one (s : IVec S1600000 32) (h : InRange s) : mask s = fun _ => 1#1 := by
  funext j
  unfold mask
  rw [Host.reduce_eq_foldl]
  exact foldl_andi_one _ (fun i => test_one s h _) _

-- In range the take's selection between the gathered rows and the fill rows is the gathered rows.
theorem take {α : Type} {a b : ℕ} (hb : S1600000.BroadcastsInDim ⟨2, ![a, b]⟩ ![0]) (s : IVec S1600000 32) (h : InRange s)
    (g nanv : (⟨2, ![a, b]⟩ : Shape).Idx → α) : select (broadcastInDim ⟨2, ![a, b]⟩ ![0] hb (mask s)) g nanv = g := by
  rw [mask_one s h]
  funext i
  show (if (1#1 : BitVec 1) = 1 then g i else nanv i) = g i
  exact if_pos rfl

def srcOf (a1 : IVec S2x1600000 32) : IVec S1600000 32 :=
  shapeCast S1600000 (extractStridedSlice S1x1600000 ![0, 0] a1 slices_S2x1600000_S1x1600000_0_0) shapeCasts_S1x1600000_S1600000

theorem src_inRange (m : (ℓ : Loc nD τ sig) → Buf (Elt Ideal) ℓ) (hpre : Cert.Pre_KernelIdeal m) (c : Dev nD) :
    InRange (srcOf (m ((c.tc : Thread nD τ).loc main_arg1))) := by
  intro e
  have h0 := congrFun (hpre c) (fun d => d.elim0)
  dsimp only [Cert.Pre_finite_inputs.fn, Cert.Pre_finite_inputs.fn_part1, Cert.Pre_finite_inputs.fn_part2,
    Cert.Pre_finite_inputs.fn_part3, Cert.Pre_finite_inputs.fn_part4] at h0
  change IntOp.andi _ _ = 1#1 at h0
  obtain ⟨-, hall⟩ := IntOp.andi_eq_one.1 h0
  have he := Host.reduce_andi_all _ _ _ _ _ hall e
  change IntOp.andi (IntOp.cmpi .sge (srcOf (m ((c.tc : Thread nD τ).loc main_arg1)) e) 4294867296#32)
    (IntOp.cmpi .slt (srcOf (m ((c.tc : Thread nD τ).loc main_arg1)) e) 100000#32) = 1#1 at he
  rw [IntOp.andi_eq_one, IntOp.cmpi_sge, IntOp.cmpi_slt, show (4294867296#32 : BitVec 32).toInt = -100000 from by decide, toInt_shift] at he
  exact he

end Cert.Gin.PreSrc

end
-- ==== Proof.KTake.lean ====
import proofs.«430980_j44702019616883_2_alg».proof.Proof.Gen.KernelIdeal.Launch
import proofs.«430980_j44702019616883_2_alg».proof.Proof.PreSrc
import Idealize.ShloMosaic.Lib.StableHlo.Run

set_option maxRecDepth 16384

noncomputable section

namespace Cert.KernelIdeal.KTake

open Cert.KernelIdeal Cert.KernelIdeal.Gen Idealize.ShloMosaic Idealize.ShloMosaic.TcCoe Idealize.ShloMosaic.StableHlo Cert.Gin

theorem ofBuf_toBuf {sig : RefSig} {T : BufTy} {Val : EltTy → Type} (x : TRef sig T) (v : T.Contents Val) :
    x.ofBuf (x.toBuf v) = v := by
  obtain ⟨r, rfl, h2, h3⟩ := x
  rfl

theorem toBuf_eq_of {sig : RefSig} {T : BufTy} {Val : EltTy → Type} (x : TRef sig T) (v : T.Contents Val)
    (w : x.ref.ty.Contents Val) (h : v = x.ofBuf w) : x.toBuf v = w := by
  obtain ⟨r, rfl, h2, h3⟩ := x
  exact h

variable {F : FTy → Type} [FloatOps F] (V : Valuation τ sig (Elt F)) (hs : PreSrc.InRange (V main_v1))
include hs

-- A take keeps a gathered row where the shifted index passes the range test: in range that is every row.
theorem take0 : after (hostOps0_1 (F := F)) V main_v8
    = Host.gather gather_S100000x64_S1600000x1_S1600000x64_1_0_n_n_0_1_164 (V main_arg0)
        (broadcastInDim S1600000x1 ![0] bcast_S1600000_S1600000x1_0 (PreSrc.norm (V main_v1))) := by
  after_results_simp
  simp only [ofBuf_toBuf]
  exact toBuf_eq_of _ _ _ (PreSrc.take (α := Elt F .f32) _ (V main_v1) hs _ _)

theorem take2 : after (hostOps2_1 (F := F)) V main_v35
    = Host.gather gather_S100000x32_S1600000x1_S1600000x32_1_0_n_n_0_1_132 (V main_v22)
        (broadcastInDim S1600000x1 ![0] bcast_S1600000_S1600000x1_0 (PreSrc.norm (V main_v1))) := by
  after_results_simp
  simp only [ofBuf_toBuf]
  exact toBuf_eq_of _ _ _ (PreSrc.take (α := Elt F .f32) _ (V main_v1) hs _ _)

theorem take4 : after (hostOps4_1 (F := F)) V main_v62
    = Host.gather gather_S100000x32_S1600000x1_S1600000x32_1_0_n_n_0_1_132 (V main_v49)
        (broadcastInDim S1600000x1 ![0] bcast_S1600000_S1600000x1_0 (PreSrc.norm (V main_v1))) := by
  after_results_simp
  simp only [ofBuf_toBuf]
  exact toBuf_eq_of _ _ _ (PreSrc.take (α := Elt F .f32) _ (V main_v1) hs _ _)

theorem take6 : after (hostOps6_1 (F := F)) V main_v89
    = Host.gather gather_S100000x32_S1600000x1_S1600000x32_1_0_n_n_0_1_132 (V main_v76)
        (broadcastInDim S1600000x1 ![0] bcast_S1600000_S1600000x1_0 (PreSrc.norm (V main_v1))) := by
  after_results_simp
  simp only [ofBuf_toBuf]
  exact toBuf_eq_of _ _ _ (PreSrc.take (α := Elt F .f32) _ (V main_v1) hs _ _)

theorem take8 : after (hostOps8_1 (F := F)) V main_v116
    = Host.gather gather_S100000x32_S1600000x1_S1600000x32_1_0_n_n_0_1_132 (V main_v103)
        (broadcastInDim S1600000x1 ![0] bcast_S1600000_S1600000x1_0 (PreSrc.norm (V main_v1))) := by
  after_results_simp
  simp only [ofBuf_toBuf]
  exact toBuf_eq_of _ _ _ (PreSrc.take (α := Elt F .f32) _ (V main_v1) hs _ _)

end Cert.KernelIdeal.KTake

end
-- ==== Proof.KMlpRow.lean ====
import proofs.«430980_j44702019616883_2_alg».proof.Proof.Spec
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.KernelIdeal.KMlpRow

open Cert.ReferenceIdeal Idealize.ShloMosaic Idealize.ShloMosaic.ValueIdx
open scoped BigOperators

-- One entry of the two-layer perceptron of a row: each layer adds its bias and clamps below at the f32 word zero.
def rowMlp {K : Nat} (u v : Fin K → EReal) (w1 : Fin K → Fin 32 → EReal) (b1 : Fin 32 → EReal)
    (w2 : Fin 32 → Fin 32 → EReal) (b2 : Fin 32 → EReal) (q : Fin 32) : EReal :=
  max ((∑ k : Fin 32, max ((∑ i : Fin K, (u i + v i) * w1 i k) + b1 k) (Ideal.ofBits .f32 0x00000000#32) * w2 k q) + b2 q)
    (Ideal.ofBits .f32 0x00000000#32)

-- A rows-by-columns product at an entry is the sum over the inner coordinate, whatever the three extents.
theorem dg_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (r : Fin M) (q : Fin N) :
    (Host.dotGeneral D none x w : FVec Ideal ⟨2, ![M, N]⟩ .f32) (ix2 r q) = ∑ i : Fin K, x (ix2 r i) * w (ix2 i q) := by
  subst hD
  rw [Host.dotGeneral, Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    Shape.idx_ext₂ rfl hk
  have er : (DotDims.plain M K N).rhsIdx (ix2 r q) ((contrEquiv1 (DotDims.plain M K N) K rfl rfl).symm k) = ix2 k q :=
    Shape.idx_ext₂ hk rfl
  rw [el, er]

-- Each stage of the reference at an entry is the perceptron of that row of its two feature arrays.
theorem mlpA_apply (a0 a1 : (⟨S100000x64, .f32⟩ : BufTy).Contents (Elt Ideal)) (w1 : (⟨S64x32, .f32⟩ : BufTy).Contents (Elt Ideal))
    (b1 : (⟨S1x32, .f32⟩ : BufTy).Contents (Elt Ideal)) (w2 : (⟨S32x32, .f32⟩ : BufTy).Contents (Elt Ideal))
    (b2 : (⟨S1x32, .f32⟩ : BufTy).Contents (Elt Ideal)) (p : Fin 100000) (q : Fin 32) :
    Cert.Gin.Spec.mlpA (F := Ideal) a0 a1 w1 b1 w2 b2 (ix2 p q)
      = rowMlp (fun i => a0 (ix2 p i)) (fun i => a1 (ix2 p i)) (fun i k => w1 (ix2 i k)) (fun k => b1 (ix2 0 k))
          (fun k q => w2 (ix2 k q)) (fun q => b2 (ix2 0 q)) q := by
  unfold Cert.Gin.Spec.mlpA rowMlp
  dsimp only
  rw [maximumf_apply, addf_apply, dg_apply dot_S100000x32_S32x32_S100000x32_1_0_0_1_n_n rfl, broadcastInDim_oneRow_apply,
    broadcastInDim_constant]
  refine congrArg₂ max (congrArg₂ (· + ·) (Finset.sum_congr rfl fun k _ => ?_) rfl) rfl
  rw [maximumf_apply, addf_apply, dg_apply dot_S100000x64_S64x32_S100000x32_1_0_0_1_n_n rfl, broadcastInDim_oneRow_apply]
  refine congrArg₂ (· * ·) (congrArg₂ max (congrArg₂ (· + ·) (Finset.sum_congr rfl fun i _ => ?_) rfl) rfl) rfl
  rw [addf_apply]

theorem mlpB_apply (a0 a1 : (⟨S100000x32, .f32⟩ : BufTy).Contents (Elt Ideal)) (w1 : (⟨S32x32, .f32⟩ : BufTy).Contents (Elt Ideal))
    (b1 : (⟨S1x32, .f32⟩ : BufTy).Contents (Elt Ideal)) (w2 : (⟨S32x32, .f32⟩ : BufTy).Contents (Elt Ideal))
    (b2 : (⟨S1x32, .f32⟩ : BufTy).Contents (Elt Ideal)) (p : Fin 100000) (q : Fin 32) :
    Cert.Gin.Spec.mlpB (F := Ideal) a0 a1 w1 b1 w2 b2 (ix2 p q)
      = rowMlp (fun i => a0 (ix2 p i)) (fun i => a1 (ix2 p i)) (fun i k => w1 (ix2 i k)) (fun k => b1 (ix2 0 k))
          (fun k q => w2 (ix2 k q)) (fun q => b2 (ix2 0 q)) q := by
  unfold Cert.Gin.Spec.mlpB rowMlp
  dsimp only
  rw [maximumf_apply, addf_apply, dg_apply dot_S100000x32_S32x32_S100000x32_1_0_0_1_n_n rfl, broadcastInDim_oneRow_apply,
    broadcastInDim_constant]
  refine congrArg₂ max (congrArg₂ (· + ·) (Finset.sum_congr rfl fun k _ => ?_) rfl) rfl
  rw [maximumf_apply, addf_apply, dg_apply dot_S100000x32_S32x32_S100000x32_1_0_0_1_n_n rfl, broadcastInDim_oneRow_apply]
  refine congrArg₂ (· * ·) (congrArg₂ max (congrArg₂ (· + ·) (Finset.sum_congr rfl fun i _ => ?_) rfl) rfl) rfl
  rw [addf_apply]

end Cert.KernelIdeal.KMlpRow

end
-- ==== Proof.KMlp0.lean ====
import proofs.«430980_j44702019616883_2_alg».proof.Proof.Gen.KernelIdeal.Frame
import proofs.«430980_j44702019616883_2_alg».proof.Proof.KMlpRow

noncomputable section

namespace Cert.KernelIdeal.KMlp0

open Cert.KernelIdeal Cert.KernelIdeal.Gen Idealize.ShloMosaic Idealize.ShloMosaic.TcCoe Idealize.ShloMosaic.ValueIdx Idealize.SL.Sem
open Idealize.ShloMosaic.Pipeline (Dat)
open scoped BigOperators

-- The payload at an entry of a block is the perceptron of that row of the two feature blocks.
theorem pay_apply (x0 x1 : Vec Ideal S10000x64 .f32) (x2 : Vec Ideal S64x32 .f32) (x3 : Vec Ideal S1x32 .f32)
    (x4 : Vec Ideal S32x32 .f32) (x5 : Vec Ideal S1x32 .f32) (r : Fin 10000) (q : Fin 32) :
    (k0_pay1 (F := Ideal) x0 x1 x2 x3 x4 x5) (ix2 r q)
      = KMlpRow.rowMlp (fun i => x0 (ix2 r i)) (fun i => x1 (ix2 r i)) (fun i k => x2 (ix2 i k)) (fun k => x3 (ix2 0 k))
          (fun k q => x4 (ix2 k q)) (fun q => x5 (ix2 0 q)) q := by
  unfold k0_pay1 KMlpRow.rowMlp
  dsimp only
  simp only [shapeCast_self]
  rw [maximumf_apply, addf_apply, matmul_zero_eq_dotGeneral, KMlpRow.dg_apply dot_S10000x32_S32x32_S10000x32_1_0_0_1_n_n rfl,
    broadcastTo_1b_ab_apply, broadcast_apply]
  refine congrArg₂ max (congrArg₂ (· + ·) (Finset.sum_congr rfl fun k _ => ?_) rfl) rfl
  rw [maximumf_apply, addf_apply, matmul_zero_eq_dotGeneral, KMlpRow.dg_apply dot_S10000x64_S64x32_S10000x32_1_0_0_1_n_n rfl,
    broadcastTo_1b_ab_apply, broadcast_apply]
  refine congrArg₂ (· * ·) (congrArg₂ max (congrArg₂ (· + ·) (Finset.sum_congr rfl fun i _ => ?_) rfl) rfl) rfl
  rw [addf_apply]

theorem hz : (![0, 0] : Fin 2 → Nat) = fun _ => 0 := funext fun a => by fin_cases a <;> rfl

-- Blocks that are rows 10000 t, … of the two feature arrays, the weights and biases whole, give rows 10000 t, … of the stage.
theorem block (a0 a1 : Vec Ideal S100000x64 .f32) (a2 : Vec Ideal S64x32 .f32) (a3 : Vec Ideal S1x32 .f32)
    (a4 : Vec Ideal S32x32 .f32) (a5 : Vec Ideal S1x32 .f32) (t : Fin grid0.N) :
    out0_6 (F := Ideal) (fun y => a0 ((win0_0.rect t).emb y)) (fun y => a1 ((win0_1.rect t).emb y)) (fun y => a2 ((win0_2.rect t).emb y))
      (fun y => a3 ((win0_3.rect t).emb y)) (fun y => a4 ((win0_4.rect t).emb y)) (fun y => a5 ((win0_5.rect t).emb y))
    = fun j => Cert.Gin.Spec.mlpA (F := Ideal) a0 a1 a2 a3 a4 a5 ((win0_6.rect t).emb j) := by
  unfold out0_6
  rw [View.canon_unit_zero hz]
  simp only [View.ld_unit_zero (S := S10000x64) hz, View.ld_unit_zero (S := S64x32) hz, View.ld_unit_zero (S := S1x32) hz, View.ld_unit_zero (S := S32x32) hz]
  funext j
  obtain ⟨r, q, rfl⟩ : ∃ (r : Fin 10000) (q : Fin 32), j = ix2 r q := ⟨j 0, j 1, eq_ix2 j⟩
  have e2 : ∀ y, (win0_2.rect t).emb y = y := fun y =>
    Shape.idx_ext₂ (win0_2.rect_emb_val_of_index_zero t 0 rfl y) (win0_2.rect_emb_val_of_index_zero t 1 rfl y)
  have e3 : ∀ y, (win0_3.rect t).emb y = y := fun y =>
    Shape.idx_ext₂ (win0_3.rect_emb_val_of_index_zero t 0 rfl y) (win0_3.rect_emb_val_of_index_zero t 1 rfl y)
  have e4 : ∀ y, (win0_4.rect t).emb y = y := fun y =>
    Shape.idx_ext₂ (win0_4.rect_emb_val_of_index_zero t 0 rfl y) (win0_4.rect_emb_val_of_index_zero t 1 rfl y)
  have e5 : ∀ y, (win0_5.rect t).emb y = y := fun y =>
    Shape.idx_ext₂ (win0_5.rect_emb_val_of_index_zero t 0 rfl y) (win0_5.rect_emb_val_of_index_zero t 1 rfl y)
  obtain ⟨p, hp⟩ : ∃ p : Fin 100000, ((win0_6.rect t).emb (ix2 r q) 0).val = p.val := ⟨(win0_6.rect t).emb (ix2 r q) 0, rfl⟩
  have e6 : (win0_6.rect t).emb (ix2 r q) = ix2 p q := Shape.idx_ext₂ hp (win0_6.rect_emb_val_of_index_zero t 1 rfl _)
  have e0 : ∀ i, (win0_0.rect t).emb (ix2 r i) = ix2 p i := fun i => Shape.idx_ext₂ hp (win0_0.rect_emb_val_of_index_zero t 1 rfl _)
  have e1 : ∀ i, (win0_1.rect t).emb (ix2 r i) = ix2 p i := fun i => Shape.idx_ext₂ hp (win0_1.rect_emb_val_of_index_zero t 1 rfl _)
  rw [pay_apply, e6, KMlpRow.mlpA_apply]
  simp only [e0, e1, e2, e3, e4, e5]

theorem mem_blk {b : Ref sig .tc} {r : Rect b.ty.shape} {i : b.ty.shape.Idx} (h : i ∈ r.set) :
    i ∈ ((View.whole b).slice r).set := (View.set_slice_whole b r).symm ▸ h

theorem idx6 : ∀ t : Fin grid0.N, win0_6.index t 0 = t.val := by decide +kernel

-- Row i lies in block i / 10000: ten blocks of 10000 rows tile the 100000 rows.
theorem cover (i : S100000x32.Idx) : ∃ t : Fin grid0.N, i ∈ (win0_6.rect t).set := by
  have hi : (i 0).val < 100000 := (i 0).isLt
  have hj : (i 1).val < 32 := (i 1).isLt
  refine ⟨⟨(i 0).val / 10000, by rw [N_0]; omega⟩, Rect.mem_set_unit.mpr fun a => ?_⟩
  match a with
  | ⟨0, _⟩ => show win0_6.index _ 0 * 10000 ≤ (i 0).val ∧ (i 0).val < win0_6.index _ 0 * 10000 + 10000; rw [idx6]; show (i 0).val / 10000 * 10000 ≤ _ ∧ _ < (i 0).val / 10000 * 10000 + 10000; omega
  | ⟨1, _⟩ => show 0 * 32 ≤ (i 1).val ∧ (i 1).val < 0 * 32 + 32; omega

variable (V : (c : Dev nD) → (b : Ref sig .tc) → Buf (Elt Ideal) ((c : Thread nD τ).loc b))

theorem value (c : Dev nD) :
    (Gen.dat0 (F := Ideal) V c).arrAt 6 cfg0.N
      = Cert.Gin.Spec.mlpA (F := Ideal) (V c main_arg0) (V c main_v11) (V c main_arg3) (V c main_v12) (V c main_arg5) (V c main_v13) := by
  refine (dat0 V c).arrAt_eq_of_cover 6 _ (fun t _ => ?_) fun i =>
    (cover i).imp fun t h => ⟨flush0_6 t, mem_blk h⟩
  show (cfg0.win 6).cut (grid0.coords t) ((dat0 V c).after 6 t) = _
  rw [after0_6]
  exact block (V c main_arg0) (V c main_v11) (V c main_arg3) (V c main_v12) (V c main_arg5) (V c main_v13) t

end Cert.KernelIdeal.KMlp0

end
-- ==== Proof.KBn.lean ====
import proofs.«430980_j44702019616883_2_alg».proof.Proof.Gen.KernelIdeal.Frame
import proofs.«430980_j44702019616883_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

-- Axis 1 of the [1,32] row is axis 0 of the [32] vector, of size 32 ≠ 1, so the broadcast reads (0, q) from q.
theorem rowcast_apply (h : Cert.ReferenceIdeal.S32.BroadcastsInDim Cert.ReferenceIdeal.S1x32 ![1])
    (v : (⟨Cert.ReferenceIdeal.S32, .f32⟩ : BufTy).Contents (Elt Ideal)) (q : Fin 32) :
    broadcastInDim Cert.ReferenceIdeal.S1x32 ![1] h v (ix2 (0 : Fin 1) q) = v (ix1 q) := by
  refine broadcastInDim_apply _ _ v (ix2 (0 : Fin 1) q) (ix1 q) fun a => ?_
  match a with
  | ⟨0, _⟩ => exact (if_neg (by decide : ¬(32 : ℕ) = 1)).symm

-- The reference's stage is pointwise arithmetic on broadcasts down the rows of [1,32] rows, so at (p, q) it reads each vector at q.
theorem bnApply_apply (Z : (⟨Cert.ReferenceIdeal.S100000x32, .f32⟩ : BufTy).Contents (Elt Ideal))
    (mu va g b : (⟨Cert.ReferenceIdeal.S32, .f32⟩ : BufTy).Contents (Elt Ideal)) (p : Fin 100000) (q : Fin 32) :
    Cert.Gin.Spec.bnApply (F := Ideal) Z mu va g b (ix2 p q)
      = g (ix1 q) * (Z (ix2 p q) - mu (ix1 q)) * Ideal.rsqrt (va (ix1 q) + Ideal.ofBits .f32 0x3727C5AC#32) + b (ix1 q) := by
  unfold Cert.Gin.Spec.bnApply
  dsimp only
  rw [addf_apply, mulf_apply, mulf_apply, subf_apply, broadcastInDim_oneRow_apply, broadcastInDim_oneRow_apply,
    broadcastInDim_oneRow_apply, broadcastInDim_oneRow_apply, rowcast_apply, rowcast_apply, rowcast_apply, rowcast_apply]
  rfl

-- The one store covers the block and each load reads its block whole, so the block holds the payload, in the reference's order of operations; the five regions' bodies unfold to this one function.
theorem out_apply (x0 : Vec Ideal S10000x32 .f32) (x1 x2 x3 x4 : Vec Ideal S1x32 .f32) (r : Fin 10000) (q : Fin 32) :
    out1_5 (F := Ideal) x0 x1 x2 x3 x4 (ix2 r q)
      = x1 (ix2 (0 : Fin 1) q) * (x0 (ix2 r q) - x3 (ix2 (0 : Fin 1) q))
          * Ideal.rsqrt (x4 (ix2 (0 : Fin 1) q) + Ideal.ofBits .f32 0x3727C5AC#32) + x2 (ix2 (0 : Fin 1) q) := by
  have hz : (![0, 0] : Fin 2 → Nat) = fun _ => 0 := funext fun a => by fin_cases a <;> rfl
  unfold out1_5
  rw [View.canon_unit_zero hz]
  simp only [View.ld_unit_zero (S := S10000x32) hz, View.ld_unit_zero (S := S1x32) hz]
  unfold k1_pay1
  simp only [shapeCast_self]
  rw [addf_apply, mulf_apply, mulf_apply, subf_apply,
    broadcastTo_1b_ab_apply x1, broadcastTo_1b_ab_apply x3, broadcastTo_1b_ab_apply x2, broadcastTo_1b_ab_apply]
  rfl

-- All of a region's index arithmetic: the blocks at (t, 0) of 10000 rows meet the feature and output arrays at the same rows, a block at (0, 0) of a [1,32] row is the row, and row k lies in block k / 10000.
theorem tiles {N : ℕ} (hN : N = 10) (Z : S100000x32.Idx → EReal) {R1 R2 R3 R4 : S1x32.Idx → EReal}
    {mu va g b : (⟨Cert.ReferenceIdeal.S32, .f32⟩ : BufTy).Contents (Elt Ideal)}
    (hg : R1 = Cert.Gin.Spec.row32 g) (hb : R2 = Cert.Gin.Spec.row32 b)
    (hmu : R3 = Cert.Gin.Spec.row32 mu) (hva : R4 = Cert.Gin.Spec.row32 va)
    {e0 e5 : Fin N → S10000x32.Idx → S100000x32.Idx} {e1 e2 e3 e4 : Fin N → S1x32.Idx → S1x32.Idx}
    {i0 i5 i1 i2 i3 i4 : Fin N → Fin 2 → ℕ}
    (h0 : ∀ t x a, (e0 t x a : ℕ) = i0 t a * S10000x32.size a + x a)
    (h5 : ∀ t x a, (e5 t x a : ℕ) = i5 t a * S10000x32.size a + x a)
    (h1 : ∀ t x a, (e1 t x a : ℕ) = i1 t a * S1x32.size a + x a)
    (h2 : ∀ t x a, (e2 t x a : ℕ) = i2 t a * S1x32.size a + x a)
    (h3 : ∀ t x a, (e3 t x a : ℕ) = i3 t a * S1x32.size a + x a)
    (h4 : ∀ t x a, (e4 t x a : ℕ) = i4 t a * S1x32.size a + x a)
    (hi : ∀ t a, i0 t a = ![t.val, 0] a ∧ i5 t a = ![t.val, 0] a ∧ i1 t a = 0 ∧ i2 t a = 0 ∧ i3 t a = 0 ∧ i4 t a = 0) :
    (∀ t y, out1_5 (F := Ideal) (fun x => Z (e0 t x)) (fun x => R1 (e1 t x)) (fun x => R2 (e2 t x)) (fun x => R3 (e3 t x))
        (fun x => R4 (e4 t x)) y = Cert.Gin.Spec.bnApply (F := Ideal) Z mu va g b (e5 t y))
      ∧ ∀ k, ∃ t y, e5 t y = k := by
  subst hN hg hb hmu hva
  have row : ∀ (e : S1x32.Idx → S1x32.Idx) (i : Fin 2 → ℕ), (∀ x a, (e x a : ℕ) = i a * S1x32.size a + x a) →
      (∀ a, i a = 0) → ∀ x, e x = x :=
    fun e i he h x => funext fun a => Fin.ext (by rw [he, h, Nat.zero_mul, Nat.zero_add])
  refine ⟨fun t y => ?_, fun k => ?_⟩
  · obtain ⟨r, q, rfl⟩ : ∃ r q, y = ix2 r q := ⟨y 0, y 1, eq_ix2 y⟩
    have e05 : e0 t (ix2 r q) = e5 t (ix2 r q) := funext fun a => Fin.ext (by rw [h0, h5, (hi t a).1, (hi t a).2.1])
    obtain ⟨p, hp⟩ : ∃ p, e5 t (ix2 r q) = ix2 p q :=
      ⟨_, (eq_ix2 _).trans (congrArg _ (Fin.ext (by rw [h5, (hi t 1).2.1]; exact Nat.zero_add _)))⟩
    rw [out_apply, e05, hp, bnApply_apply, row _ _ (h1 t) fun a => (hi t a).2.2.1, row _ _ (h2 t) fun a => (hi t a).2.2.2.1,
      row _ _ (h3 t) fun a => (hi t a).2.2.2.2.1, row _ _ (h4 t) fun a => (hi t a).2.2.2.2.2]
    exact congrArg₂ _ (congrArg₂ _ (congrArg₂ _ (rowcast_apply _ g q) (congrArg _ (rowcast_apply _ mu q)))
      (congrArg _ (congrArg (· + _) (rowcast_apply _ va q)))) (rowcast_apply _ b q)
  · have hk := idx2_lt0 k
    refine ⟨⟨(k 0).val / 10000, by omega⟩, ix2 ⟨(k 0).val % 10000, Nat.mod_lt _ (by decide)⟩ (k 1), funext fun a => Fin.ext ?_⟩
    rw [h5, (hi _ a).2.1]
    match a with
    | ⟨0, _⟩ => exact Nat.div_add_mod' _ _
    | ⟨1, _⟩ => exact Nat.zero_add _

-- The library's cover lemma, with membership in a block witnessed by the element that sits there.
theorem arrAt_eq {cfg : Pipeline.Cfg sig Λ₀} {c : Dev nD} (dat : Dat τ (Elt Ideal) Unit ℕ (UR sig nD τ) ℕ cfg c) (w : Fin cfg.W)
    (G : Buf (Elt Ideal) ((cfg.win w).arr.view.loc (c.tc : Thread nD τ))) (hf : ∀ t, (cfg.win w).flush t = true)
    (hv : ∀ t y, dat.after w t ((cfg.win w).xinj _ y) = ((cfg.win w).blk t).view.read _ G y)
    (hc : ∀ k : ((cfg.win w).arr.view.loc (c.tc : Thread nD τ)).2.ty.Idx, ∃ t y, ((cfg.win w).blk t).view.emb y = k) : dat.arrAt w cfg.N = G :=
  dat.arrAt_eq_of_cover w G (fun t _ => funext (hv t)) fun k =>
    let ⟨t, y, h⟩ := hc k; ⟨t, hf t, Finset.mem_map.mpr ⟨y, Finset.mem_univ _, h⟩⟩

-- Decided once: the five regions' index maps unfold to the same functions on the same grid of ten points.
theorem idx : ∀ t : Fin cfg1.N, ∀ a : Fin 2, win1_0.index t a = ![t.val, 0] a ∧ win1_5.index t a = ![t.val, 0] a
    ∧ win1_1.index t a = 0 ∧ win1_2.index t a = 0 ∧ win1_3.index t a = 0 ∧ win1_4.index t a = 0 :=
  (by decide +kernel : ∀ t : Fin grid1.N, _)

end Cert.KernelIdeal.KBn
-- ==== Proof.KBn1.lean ====
import proofs.«430980_j44702019616883_2_alg».proof.Proof.KBn

namespace Cert.KernelIdeal.KBn1

open Cert.KernelIdeal Cert.KernelIdeal.Gen Idealize.ShloMosaic Idealize.ShloMosaic.TcCoe

variable (V : (c : Dev nD) → (b : Ref sig .tc) → Buf (Elt Ideal) ((c : Thread nD τ).loc b))

-- Only the names are the region's own: the arithmetic is `KBn.tiles`, for any blocks that sit as `KBn.idx` says these do.
theorem value (c : Dev nD) (mu va g b : (⟨Cert.ReferenceIdeal.S32, .f32⟩ : BufTy).Contents (Elt Ideal))
    (hg : V c main_v20 = Cert.Gin.Spec.row32 g) (hb : V c main_v21 = Cert.Gin.Spec.row32 b)
    (hmu : V c main_v18 = Cert.Gin.Spec.row32 mu) (hva : V c main_v19 = Cert.Gin.Spec.row32 va) :
    (Gen.dat1 (F := Ideal) V c).arrAt 5 cfg1.N = Cert.Gin.Spec.bnApply (F := Ideal) (V c main_v14) mu va g b := by
  obtain ⟨hv, hc⟩ := KBn.tiles N_1 (V c main_v14) hg hb hmu hva win1_0.rect_emb_val win1_5.rect_emb_val
    win1_1.rect_emb_val win1_2.rect_emb_val win1_3.rect_emb_val win1_4.rect_emb_val KBn.idx
  exact KBn.arrAt_eq (dat1 V c) 5 _ flush1_5 (fun t y => (congrFun (after1_5 V c t) _).trans (hv t y)) hc

end Cert.KernelIdeal.KBn1
-- ==== Proof.KLayer0.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KKeep
import proofs.«430980_j44702019616883_2_alg».proof.Proof.KTake
import proofs.«430980_j44702019616883_2_alg».proof.Proof.KMlp0
import proofs.«430980_j44702019616883_2_alg».proof.Proof.KBn1

set_option maxRecDepth 16384

noncomputable section

namespace Cert.KernelIdeal.KLayer0

open Cert.KernelIdeal Cert.KernelIdeal.Gen Idealize.ShloMosaic Idealize.ShloMosaic.TcCoe Cert.Gin KKeep

variable (m : (ℓ : Loc nD τ sig) → Buf (Elt Ideal) ℓ) (ρ : Dev nD → PrngReg) (c : Dev nD)

-- The arguments the first line must leave alone, and what the later lines must.
abbrev KA : List (Ref sig .tc) := main_arg0 :: main_arg3 :: main_arg5 :: kept.drop 2

abbrev KB : List (Ref sig .tc) := main_v1 :: main_v3 :: main_v5 :: main_v7 :: main_v14 :: KA

theorem writes : Keeps KA (hostOps0 (F := Ideal)) ∧ Keeps KB (hostOps0_1 (F := Ideal)) ∧ Keeps KB (hostOps0_2 (F := Ideal))
    ∧ Keeps KB (hostOps1 (F := Ideal)) ∧ Keeps KB (hostOps1_1 (F := Ideal)) ∧ Keeps KB (hostOps1_2 (F := Ideal)) := by
  simp only [Keeps, hostOps0, hostOps0_1, hostOps0_2, hostOps1, hostOps1_1, hostOps1_2, List.Forall, StableHlo.nullary_writes, StableHlo.unary_writes,
    StableHlo.binary_writes, StableHlo.ternary_writes, StableHlo.reshape_writes, Finset.mem_singleton]
  repeat' apply And.intro
  all_goals exact fun r hr e => absurd (Proc.devRef_injective _ e ▸ hr) (by decide)

theorem pre (r : Ref sig .tc) (hr : r ∈ KB) : W3 m ρ c r = W1 m ρ c r :=
  (after_of_keeps _ writes.2.2.1 hr).trans (after_of_keeps _ writes.2.1 hr)

theorem post (r : Ref sig .tc) (hr : r ∈ KB) : W7 m ρ c r = W4 m ρ c r :=
  after3_of _ writes.2.2.2.1 writes.2.2.2.2.1 writes.2.2.2.2.2 hr

-- An argument that no line writes enters the first region as launched.
theorem arg (r : Ref sig .tc) (hr : r ∈ KA) : W3 m ρ c r = W0 m ρ c r :=
  (pre m ρ c r (by revert r; decide)).trans (after_of_keeps _ writes.1 hr)

-- A kept reference is written by no line after the first and is no array of either region.
theorem keep (r : Ref sig .tc) (hr : r ∈ kept := by decide) : W8 m ρ c r = W1 m ρ c r := by
  have h : r ∈ KB ∧ (∀ w, Pipeline.arrRef spec0 w ≠ r) ∧ ∀ w, Pipeline.arrRef spec1 w ≠ r := by
    revert r; decide
  exact (W8_of_ne m ρ c r h.2.2).trans ((post m ρ c r h.1).trans ((W4_of_ne m ρ c r h.2.1).trans (pre m ρ c r h.1)))

-- The first line cuts the edge table into its two index rows and the stacked scale and shift into their first rows.
theorem first : W1 m ρ c main_v1 = Spec.src (W0 m ρ c main_arg1) ∧ W1 m ρ c main_v3 = Spec.dst (W0 m ρ c main_arg1)
    ∧ W1 m ρ c main_v5 = Spec.g0 (W0 m ρ c main_arg11) ∧ W1 m ρ c main_v7 = Spec.be0 (W0 m ρ c main_arg12) := by
  dsimp only [W1]
  refine ⟨?_, ?_, ?_, ?_⟩ <;> after_results <;> rfl

-- The rest of the stacked arguments, and the two index rows, leave the layer as the first line left them.
theorem kept_arg (r : Ref sig .tc) (hr : r ∈ kept.drop 2 := by decide) : W8 m ρ c r = W0 m ρ c r :=
  (keep m ρ c r (List.mem_of_mem_drop hr)).trans
    (after_of_keeps _ writes.1 (by revert r; decide))

theorem biases : W3 m ρ c main_v12 = Spec.row32 (W0 m ρ c main_arg4) ∧ W3 m ρ c main_v13 = Spec.row32 (W0 m ρ c main_arg6) := by
  dsimp only [W3, W2, W1]
  constructor <;> after_results <;> exact KRows.reshape_row32 _

-- The neighbour sum: in range the take is the plain gather, and adding its rows into the destination rows is the reference's sum.
theorem agg (hs : PreSrc.InRange (W1 m ρ c main_v1)) :
    W3 m ρ c main_v11 = Spec.aggA (W0 m ρ c main_arg0) (Spec.idx (W1 m ρ c main_v1)) (W1 m ρ c main_v3) := by
  have ht : W2 m ρ c main_v8 = _ := KTake.take0 (W1 m ρ c) hs
  have k3 : W2 m ρ c main_v3 = W1 m ρ c main_v3 := after_of_keeps _ writes.2.1 (by decide)
  have k0 : W1 m ρ c main_arg0 = W0 m ρ c main_arg0 := after_of_keeps _ writes.1 (by decide)
  dsimp only [W3]
  generalize W2 m ρ c = V2 at *
  after_results
  rw [ht, k3, k0]
  rfl

-- The column statistics of the perceptron's result, taken with a kept unit axis, are the rows of the reference's.
theorem stats : W7 m ρ c main_v18 = Spec.row32 (Spec.mean (W4 m ρ c main_v14))
    ∧ W7 m ρ c main_v19 = Spec.row32 (Spec.var (W4 m ρ c main_v14)) := by
  rw [← KRows.meanK_eq, ← KRows.varK_eq]
  dsimp only [W7, W6, W5]
  constructor
  · after_results
    rfl
  · after_results_simp
    simp only [StableHlo.TRef.ofBuf, StableHlo.TRef.toBuf, cast_eq]
    rfl

theorem rows : W7 m ρ c main_v20 = Spec.row32 (Spec.g0 (W0 m ρ c main_arg11))
    ∧ W7 m ρ c main_v21 = Spec.row32 (Spec.be0 (W0 m ρ c main_arg12)) := by
  obtain ⟨-, -, e5, e7⟩ := first m ρ c
  rw [← e5, ← e7, ← pre m ρ c main_v5 (by decide), ← pre m ρ c main_v7 (by decide),
    ← W4_of_ne m ρ c main_v5 (by decide), ← W4_of_ne m ρ c main_v7 (by decide)]
  dsimp only [W7, W6, W5]
  constructor <;> after_results <;> exact KRows.reshape_row32 _

-- The first layer's result is the reference's first layer function of the arguments as launched.
theorem out (hs : PreSrc.InRange (Spec.src (W0 m ρ c main_arg1))) :
    W8 m ρ c main_v22 = Spec.layerA (W0 m ρ c main_arg0) (Spec.src (W0 m ρ c main_arg1)) (Spec.dst (W0 m ρ c main_arg1))
      (W0 m ρ c main_arg3) (W0 m ρ c main_arg4) (W0 m ρ c main_arg5) (W0 m ρ c main_arg6)
      (Spec.g0 (W0 m ρ c main_arg11)) (Spec.be0 (W0 m ρ c main_arg12)) := by
  obtain ⟨e1, e3, -, -⟩ := first m ρ c
  have hz : W4 m ρ c main_v14 = Spec.mlpA (W3 m ρ c main_arg0) (W3 m ρ c main_v11) (W3 m ρ c main_arg3)
      (W3 m ρ c main_v12) (W3 m ρ c main_arg5) (W3 m ρ c main_v13) := (W4_arr m ρ c 6).trans (KMlp0.value (V3 m ρ) c)
  rw [arg m ρ c main_arg0 (by decide), agg m ρ c (by rw [e1]; exact hs), arg m ρ c main_arg3 (by decide),
    (biases m ρ c).1, arg m ρ c main_arg5 (by decide), (biases m ρ c).2, e1, e3] at hz
  refine ((W8_arr m ρ c 5).trans (KBn1.value (V7 m ρ) c _ _ _ _ (rows m ρ c).1 (rows m ρ c).2 (stats m ρ c).1
    (stats m ρ c).2)).trans ?_
  show Spec.bnApply (W7 m ρ c main_v14) _ _ _ _ = _
  rw [post m ρ c main_v14 (by decide), hz]
  rfl

end Cert.KernelIdeal.KLayer0

end
-- ==== Proof.KMlp2.lean ====
import proofs.«430980_j44702019616883_2_alg».proof.Proof.KMlp0

noncomputable section

namespace Cert.KernelIdeal.KMlp2

open Cert.KernelIdeal Cert.KernelIdeal.Gen Idealize.ShloMosaic Idealize.ShloMosaic.TcCoe Idealize.ShloMosaic.ValueIdx Idealize.SL.Sem
open Idealize.ShloMosaic.Pipeline (Dat)
open scoped BigOperators

-- The payload at an entry of a block is the perceptron of that row of the two feature blocks.
theorem pay_apply (x0 x1 : Vec Ideal S10000x32 .f32) (x2 : Vec Ideal S32x32 .f32) (x3 : Vec Ideal S1x32 .f32)
    (x4 : Vec Ideal S32x32 .f32) (x5 : Vec Ideal S1x32 .f32) (r : Fin 10000) (q : Fin 32) :
    (k2_pay1 (F := Ideal) x0 x1 x2 x3 x4 x5) (ix2 r q)
      = KMlpRow.rowMlp (fun i => x0 (ix2 r i)) (fun i => x1 (ix2 r i)) (fun i k => x2 (ix2 i k)) (fun k => x3 (ix2 0 k))
          (fun k q => x4 (ix2 k q)) (fun q => x5 (ix2 0 q)) q := by
  unfold k2_pay1 KMlpRow.rowMlp
  dsimp only
  simp only [shapeCast_self]
  rw [maximumf_apply, addf_apply, matmul_zero_eq_dotGeneral, KMlpRow.dg_apply dot_S10000x32_S32x32_S10000x32_1_0_0_1_n_n rfl,
    broadcastTo_1b_ab_apply, broadcast_apply]
  refine congrArg₂ max (congrArg₂ (· + ·) (Finset.sum_congr rfl fun k _ => ?_) rfl) rfl
  rw [maximumf_apply, addf_apply, matmul_zero_eq_dotGeneral, KMlpRow.dg_apply dot_S10000x32_S32x32_S10000x32_1_0_0_1_n_n rfl,
    broadcastTo_1b_ab_apply, broadcast_apply]
  refine congrArg₂ (· * ·) (congrArg₂ max (congrArg₂ (· + ·) (Finset.sum_congr rfl fun i _ => ?_) rfl) rfl) rfl
  rw [addf_apply]

-- Blocks that are rows 10000 t, … of the two feature arrays, the weights and biases whole, give rows 10000 t, … of the stage.
theorem block (a0 a1 : Vec Ideal S100000x32 .f32) (a2 : Vec Ideal S32x32 .f32) (a3 : Vec Ideal S1x32 .f32)
    (a4 : Vec Ideal S32x32 .f32) (a5 : Vec Ideal S1x32 .f32) (t : Fin grid2.N) :
    out2_6 (F := Ideal) (fun y => a0 ((win2_0.rect t).emb y)) (fun y => a1 ((win2_1.rect t).emb y)) (fun y => a2 ((win2_2.rect t).emb y))
      (fun y => a3 ((win2_3.rect t).emb y)) (fun y => a4 ((win2_4.rect t).emb y)) (fun y => a5 ((win2_5.rect t).emb y))
    = fun j => Cert.Gin.Spec.mlpB (F := Ideal) a0 a1 a2 a3 a4 a5 ((win2_6.rect t).emb j) := by
  unfold out2_6
  rw [View.canon_unit_zero KMlp0.hz]
  simp only [View.ld_unit_zero (S := S10000x32) KMlp0.hz, View.ld_unit_zero (S := S32x32) KMlp0.hz, View.ld_unit_zero (S := S1x32) KMlp0.hz]
  funext j
  obtain ⟨r, q, rfl⟩ : ∃ (r : Fin 10000) (q : Fin 32), j = ix2 r q := ⟨j 0, j 1, eq_ix2 j⟩
  have e2 : ∀ y, (win2_2.rect t).emb y = y := fun y =>
    Shape.idx_ext₂ (win2_2.rect_emb_val_of_index_zero t 0 rfl y) (win2_2.rect_emb_val_of_index_zero t 1 rfl y)
  have e3 : ∀ y, (win2_3.rect t).emb y = y := fun y =>
    Shape.idx_ext₂ (win2_3.rect_emb_val_of_index_zero t 0 rfl y) (win2_3.rect_emb_val_of_index_zero t 1 rfl y)
  have e4 : ∀ y, (win2_4.rect t).emb y = y := fun y =>
    Shape.idx_ext₂ (win2_4.rect_emb_val_of_index_zero t 0 rfl y) (win2_4.rect_emb_val_of_index_zero t 1 rfl y)
  have e5 : ∀ y, (win2_5.rect t).emb y = y := fun y =>
    Shape.idx_ext₂ (win2_5.rect_emb_val_of_index_zero t 0 rfl y) (win2_5.rect_emb_val_of_index_zero t 1 rfl y)
  obtain ⟨p, hp⟩ : ∃ p : Fin 100000, ((win2_6.rect t).emb (ix2 r q) 0).val = p.val := ⟨(win2_6.rect t).emb (ix2 r q) 0, rfl⟩
  have e6 : (win2_6.rect t).emb (ix2 r q) = ix2 p q := Shape.idx_ext₂ hp (win2_6.rect_emb_val_of_index_zero t 1 rfl _)
  have e0 : ∀ i, (win2_0.rect t).emb (ix2 r i) = ix2 p i := fun i => Shape.idx_ext₂ hp (win2_0.rect_emb_val_of_index_zero t 1 rfl _)
  have e1 : ∀ i, (win2_1.rect t).emb (ix2 r i) = ix2 p i := fun i => Shape.idx_ext₂ hp (win2_1.rect_emb_val_of_index_zero t 1 rfl _)
  rw [pay_apply, e6, KMlpRow.mlpB_apply]
  simp only [e0, e1, e2, e3, e4, e5]

variable (V : (c : Dev nD) → (b : Ref sig .tc) → Buf (Elt Ideal) ((c : Thread nD τ).loc b))

theorem value (c : Dev nD) :
    (Gen.dat2 (F := Ideal) V c).arrAt 6 cfg2.N
      = Cert.Gin.Spec.mlpB (F := Ideal) (V c main_v22) (V c main_v38) (V c main_v24) (V c main_v39) (V c main_v28) (V c main_v40) := by
  refine (dat2 V c).arrAt_eq_of_cover 6 _ (fun t _ => ?_) fun i =>
    (KMlp0.cover i).imp fun t h => ⟨flush2_6 t, KMlp0.mem_blk h⟩
  show (cfg2.win 6).cut (grid2.coords t) ((dat2 V c).after 6 t) = _
  rw [after2_6]
  exact block (V c main_v22) (V c main_v38) (V c main_v24) (V c main_v39) (V c main_v28) (V c main_v40) t

end Cert.KernelIdeal.KMlp2

end
-- ==== Proof.KBn3.lean ====
import proofs.«430980_j44702019616883_2_alg».proof.Proof.KBn

namespace Cert.KernelIdeal.KBn3

open Cert.KernelIdeal Cert.KernelIdeal.Gen Idealize.ShloMosaic Idealize.ShloMosaic.TcCoe

variable (V : (c : Dev nD) → (b : Ref sig .tc) → Buf (Elt Ideal) ((c : Thread nD τ).loc b))

-- Only the names are the region's own: the arithmetic is `KBn.tiles`, for any blocks that sit as `KBn.idx` says these do.
theorem value (c : Dev nD) (mu va g b : (⟨Cert.ReferenceIdeal.S32, .f32⟩ : BufTy).Contents (Elt Ideal))
    (hg : V c main_v47 = Cert.Gin.Spec.row32 g) (hb : V c main_v48 = Cert.Gin.Spec.row32 b)
    (hmu : V c main_v45 = Cert.Gin.Spec.row32 mu) (hva : V c main_v46 = Cert.Gin.Spec.row32 va) :
    (Gen.dat3 (F := Ideal) V c).arrAt 5 cfg3.N = Cert.Gin.Spec.bnApply (F := Ideal) (V c main_v41) mu va g b := by
  obtain ⟨hv, hc⟩ := KBn.tiles N_3 (V c main_v41) hg hb hmu hva win3_0.rect_emb_val win3_5.rect_emb_val
    win3_1.rect_emb_val win3_2.rect_emb_val win3_3.rect_emb_val win3_4.rect_emb_val KBn.idx
  exact KBn.arrAt_eq (dat3 V c) 5 _ flush3_5 (fun t y => (congrFun (after3_5 V c t) _).trans (hv t y)) hc

end Cert.KernelIdeal.KBn3
-- ==== Proof.KLayer1.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KKeep
import proofs.«430980_j44702019616883_2_alg».proof.Proof.KTake
import proofs.«430980_j44702019616883_2_alg».proof.Proof.KMlp2
import proofs.«430980_j44702019616883_2_alg».proof.Proof.KBn3

set_option maxRecDepth 16384

noncomputable section

namespace Cert.KernelIdeal.KLayer1

open Cert.KernelIdeal Cert.KernelIdeal.Gen Idealize.ShloMosaic Idealize.ShloMosaic.TcCoe Cert.Gin KKeep

variable (m : (ℓ : Loc nD τ sig) → Buf (Elt Ideal) ℓ) (ρ : Dev nD → PrngReg) (c : Dev nD)

-- The references whose contents the layer's lines must leave alone.
abbrev K : List (Ref sig .tc) := main_v22 :: main_v41 :: kept

theorem writes : Keeps K (hostOps2 (F := Ideal)) ∧ Keeps K (hostOps2_1 (F := Ideal)) ∧ Keeps K (hostOps2_2 (F := Ideal))
    ∧ Keeps K (hostOps3 (F := Ideal)) ∧ Keeps K (hostOps3_1 (F := Ideal)) ∧ Keeps K (hostOps3_2 (F := Ideal)) := by
  simp only [Keeps, hostOps2, hostOps2_1, hostOps2_2, hostOps3, hostOps3_1, hostOps3_2, List.Forall, StableHlo.nullary_writes, StableHlo.unary_writes,
    StableHlo.binary_writes, StableHlo.ternary_writes, StableHlo.reshape_writes, Finset.mem_singleton]
  repeat' apply And.intro
  all_goals exact fun r hr e => absurd (Proc.devRef_injective _ e ▸ hr) (by decide)

theorem pre (r : Ref sig .tc) (hr : r ∈ K) : W11 m ρ c r = W8 m ρ c r :=
  after3_of _ writes.1 writes.2.1 writes.2.2.1 hr

theorem post (r : Ref sig .tc) (hr : r ∈ K) : W15 m ρ c r = W12 m ρ c r :=
  after3_of _ writes.2.2.2.1 writes.2.2.2.2.1 writes.2.2.2.2.2 hr

-- A kept reference is written by no line of the layer and is no array of either region.
theorem keep (r : Ref sig .tc) (hr : r ∈ kept := by decide) : W16 m ρ c r = W8 m ρ c r := by
  have h : r ∈ K ∧ (∀ w, Pipeline.arrRef spec2 w ≠ r) ∧ ∀ w, Pipeline.arrRef spec3 w ≠ r := by
    revert r; decide
  exact (W16_of_ne m ρ c r h.2.2).trans ((post m ρ c r h.1).trans ((W12_of_ne m ρ c r h.2.1).trans (pre m ρ c r h.1)))

-- The perceptron region is entered with the layer's slices of the stacked weights, the biases as rows.
theorem entry : W11 m ρ c main_v24 = Spec.wa1 (W8 m ρ c main_arg7) ∧ W11 m ρ c main_v28 = Spec.wb1 (W8 m ρ c main_arg9)
    ∧ W11 m ρ c main_v39 = Spec.row32 (Spec.ba1 (W8 m ρ c main_arg8))
    ∧ W11 m ρ c main_v40 = Spec.row32 (Spec.bb1 (W8 m ρ c main_arg10))
    ∧ W11 m ρ c main_v32 = Spec.g1 (W8 m ρ c main_arg11) ∧ W11 m ρ c main_v34 = Spec.be1 (W8 m ρ c main_arg12) := by
  dsimp only [W11, W10, W9]
  refine ⟨?_, ?_, ?_, ?_, ?_, ?_⟩ <;> after_results <;> first | exact KRows.reshape_row32 _ | rfl

-- The neighbour sum: in range the take is the plain gather, and adding its rows into the destination rows is the reference's sum.
theorem agg (hs : PreSrc.InRange (W8 m ρ c main_v1)) :
    W11 m ρ c main_v38 = Spec.aggB (W8 m ρ c main_v22) (Spec.idx (W8 m ρ c main_v1)) (W8 m ρ c main_v3) := by
  have k (r : Ref sig .tc) (hr : r ∈ K) : W9 m ρ c r = W8 m ρ c r := after_of_keeps _ writes.1 hr
  have k3 : W10 m ρ c main_v3 = W8 m ρ c main_v3 := (after_of_keeps _ writes.2.1 (by decide)).trans (k _ (by decide))
  have ht : W10 m ρ c main_v35 = _ := KTake.take2 (W9 m ρ c) (by rw [k main_v1 (by decide)]; exact hs)
  dsimp only [W11]
  generalize W10 m ρ c = V10 at *
  after_results
  rw [ht, k3, k main_v22 (by decide), k main_v1 (by decide)]
  rfl

-- The column statistics of the perceptron's result, taken with a kept unit axis, are the rows of the reference's.
theorem stats : W15 m ρ c main_v45 = Spec.row32 (Spec.mean (W12 m ρ c main_v41))
    ∧ W15 m ρ c main_v46 = Spec.row32 (Spec.var (W12 m ρ c main_v41)) := by
  rw [← KRows.meanK_eq, ← KRows.varK_eq]
  dsimp only [W15, W14, W13]
  constructor
  · after_results
    rfl
  · after_results_simp
    simp only [StableHlo.TRef.ofBuf, StableHlo.TRef.toBuf, cast_eq]
    rfl

-- The scale and the shift, sliced before the perceptron region, enter the normalisation region as rows.
theorem rows : W15 m ρ c main_v47 = Spec.row32 (Spec.g1 (W8 m ρ c main_arg11))
    ∧ W15 m ρ c main_v48 = Spec.row32 (Spec.be1 (W8 m ρ c main_arg12)) := by
  obtain ⟨-, -, -, -, e32, e34⟩ := entry m ρ c
  rw [← e32, ← e34, ← W12_of_ne m ρ c main_v32 (by decide), ← W12_of_ne m ρ c main_v34 (by decide)]
  dsimp only [W15, W14, W13]
  constructor <;> after_results <;> exact KRows.reshape_row32 _

-- The layer's result is the reference's layer function of what the layer is entered with.
theorem out (hs : PreSrc.InRange (W8 m ρ c main_v1)) :
    W16 m ρ c main_v49 = Spec.layerB (W8 m ρ c main_v22) (W8 m ρ c main_v1) (W8 m ρ c main_v3)
      (Spec.wa1 (W8 m ρ c main_arg7)) (Spec.ba1 (W8 m ρ c main_arg8)) (Spec.wb1 (W8 m ρ c main_arg9))
      (Spec.bb1 (W8 m ρ c main_arg10)) (Spec.g1 (W8 m ρ c main_arg11)) (Spec.be1 (W8 m ρ c main_arg12)) := by
  obtain ⟨e24, e28, e39, e40, -, -⟩ := entry m ρ c
  have hz : W12 m ρ c main_v41 = Spec.mlpB (W11 m ρ c main_v22) (W11 m ρ c main_v38) (W11 m ρ c main_v24)
      (W11 m ρ c main_v39) (W11 m ρ c main_v28) (W11 m ρ c main_v40) := (W12_arr m ρ c 6).trans (KMlp2.value (V11 m ρ) c)
  rw [pre m ρ c main_v22 (by decide), agg m ρ c hs, e24, e39, e28, e40] at hz
  refine ((W16_arr m ρ c 5).trans (KBn3.value (V15 m ρ) c _ _ _ _ (rows m ρ c).1 (rows m ρ c).2 (stats m ρ c).1
    (stats m ρ c).2)).trans ?_
  show Spec.bnApply (W15 m ρ c main_v41) _ _ _ _ = _
  rw [post m ρ c main_v41 (by decide), hz]
  rfl

end Cert.KernelIdeal.KLayer1

end
-- ==== Proof.KMlp4.lean ====
import proofs.«430980_j44702019616883_2_alg».proof.Proof.KMlp2

noncomputable section

namespace Cert.KernelIdeal.KMlp4

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem value (c : Dev nD) :
    (Gen.dat4 (F := Ideal) V c).arrAt 6 cfg4.N
      = Cert.Gin.Spec.mlpB (F := Ideal) (V c main_v49) (V c main_v65) (V c main_v51) (V c main_v66) (V c main_v55) (V c main_v67) := by
  refine (dat4 V c).arrAt_eq_of_cover 6 _ (fun t _ => ?_) fun i =>
    (KMlp0.cover i).imp fun t h => ⟨flush4_6 t, KMlp0.mem_blk h⟩
  show (cfg4.win 6).cut (grid4.coords t) ((dat4 V c).after 6 t) = _
  rw [after4_6]
  exact KMlp2.block (V c main_v49) (V c main_v65) (V c main_v51) (V c main_v66) (V c main_v55) (V c main_v67) t

end Cert.KernelIdeal.KMlp4

end
-- ==== Proof.KBn5.lean ====
import proofs.«430980_j44702019616883_2_alg».proof.Proof.KBn

namespace Cert.KernelIdeal.KBn5

open Cert.KernelIdeal Cert.KernelIdeal.Gen Idealize.ShloMosaic Idealize.ShloMosaic.TcCoe

variable (V : (c : Dev nD) → (b : Ref sig .tc) → Buf (Elt Ideal) ((c : Thread nD τ).loc b))

-- Only the names are the region's own: the arithmetic is `KBn.tiles`, for any blocks that sit as `KBn.idx` says these do.
theorem value (c : Dev nD) (mu va g b : (⟨Cert.ReferenceIdeal.S32, .f32⟩ : BufTy).Contents (Elt Ideal))
    (hg : V c main_v74 = Cert.Gin.Spec.row32 g) (hb : V c main_v75 = Cert.Gin.Spec.row32 b)
    (hmu : V c main_v72 = Cert.Gin.Spec.row32 mu) (hva : V c main_v73 = Cert.Gin.Spec.row32 va) :
    (Gen.dat5 (F := Ideal) V c).arrAt 5 cfg5.N = Cert.Gin.Spec.bnApply (F := Ideal) (V c main_v68) mu va g b := by
  obtain ⟨hv, hc⟩ := KBn.tiles N_5 (V c main_v68) hg hb hmu hva win5_0.rect_emb_val win5_5.rect_emb_val
    win5_1.rect_emb_val win5_2.rect_emb_val win5_3.rect_emb_val win5_4.rect_emb_val KBn.idx
  exact KBn.arrAt_eq (dat5 V c) 5 _ flush5_5 (fun t y => (congrFun (after5_5 V c t) _).trans (hv t y)) hc

end Cert.KernelIdeal.KBn5
-- ==== Proof.KLayer2.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KKeep
import proofs.«430980_j44702019616883_2_alg».proof.Proof.KTake
import proofs.«430980_j44702019616883_2_alg».proof.Proof.KMlp4
import proofs.«430980_j44702019616883_2_alg».proof.Proof.KBn5

set_option maxRecDepth 16384

noncomputable section

namespace Cert.KernelIdeal.KLayer2

open Cert.KernelIdeal Cert.KernelIdeal.Gen Idealize.ShloMosaic Idealize.ShloMosaic.TcCoe Cert.Gin KKeep

variable (m : (ℓ : Loc nD τ sig) → Buf (Elt Ideal) ℓ) (ρ : Dev nD → PrngReg) (c : Dev nD)

-- The references whose contents the layer's lines must leave alone.
abbrev K : List (Ref sig .tc) := main_v49 :: main_v68 :: kept

theorem writes : Keeps K (hostOps4 (F := Ideal)) ∧ Keeps K (hostOps4_1 (F := Ideal)) ∧ Keeps K (hostOps4_2 (F := Ideal))
    ∧ Keeps K (hostOps5 (F := Ideal)) ∧ Keeps K (hostOps5_1 (F := Ideal)) ∧ Keeps K (hostOps5_2 (F := Ideal)) := by
  simp only [Keeps, hostOps4, hostOps4_1, hostOps4_2, hostOps5, hostOps5_1, hostOps5_2, List.Forall, StableHlo.nullary_writes, StableHlo.unary_writes,
    StableHlo.binary_writes, StableHlo.ternary_writes, StableHlo.reshape_writes, Finset.mem_singleton]
  repeat' apply And.intro
  all_goals exact fun r hr e => absurd (Proc.devRef_injective _ e ▸ hr) (by decide)

theorem pre (r : Ref sig .tc) (hr : r ∈ K) : W19 m ρ c r = W16 m ρ c r :=
  after3_of _ writes.1 writes.2.1 writes.2.2.1 hr

theorem post (r : Ref sig .tc) (hr : r ∈ K) : W23 m ρ c r = W20 m ρ c r :=
  after3_of _ writes.2.2.2.1 writes.2.2.2.2.1 writes.2.2.2.2.2 hr

-- A kept reference is written by no line of the layer and is no array of either region.
theorem keep (r : Ref sig .tc) (hr : r ∈ kept := by decide) : W24 m ρ c r = W16 m ρ c r := by
  have h : r ∈ K ∧ (∀ w, Pipeline.arrRef spec4 w ≠ r) ∧ ∀ w, Pipeline.arrRef spec5 w ≠ r := by
    revert r; decide
  exact (W24_of_ne m ρ c r h.2.2).trans ((post m ρ c r h.1).trans ((W20_of_ne m ρ c r h.2.1).trans (pre m ρ c r h.1)))

-- The perceptron region is entered with the layer's slices of the stacked weights, the biases as rows.
theorem entry : W19 m ρ c main_v51 = Spec.wa2 (W16 m ρ c main_arg7) ∧ W19 m ρ c main_v55 = Spec.wb2 (W16 m ρ c main_arg9)
    ∧ W19 m ρ c main_v66 = Spec.row32 (Spec.ba2 (W16 m ρ c main_arg8))
    ∧ W19 m ρ c main_v67 = Spec.row32 (Spec.bb2 (W16 m ρ c main_arg10))
    ∧ W19 m ρ c main_v59 = Spec.g2 (W16 m ρ c main_arg11) ∧ W19 m ρ c main_v61 = Spec.be2 (W16 m ρ c main_arg12) := by
  dsimp only [W19, W18, W17]
  refine ⟨?_, ?_, ?_, ?_, ?_, ?_⟩ <;> after_results <;> first | exact KRows.reshape_row32 _ | rfl

-- The neighbour sum: in range the take is the plain gather, and adding its rows into the destination rows is the reference's sum.
theorem agg (hs : PreSrc.InRange (W16 m ρ c main_v1)) :
    W19 m ρ c main_v65 = Spec.aggB (W16 m ρ c main_v49) (Spec.idx (W16 m ρ c main_v1)) (W16 m ρ c main_v3) := by
  have k (r : Ref sig .tc) (hr : r ∈ K) : W17 m ρ c r = W16 m ρ c r := after_of_keeps _ writes.1 hr
  have k3 : W18 m ρ c main_v3 = W16 m ρ c main_v3 := (after_of_keeps _ writes.2.1 (by decide)).trans (k _ (by decide))
  have ht : W18 m ρ c main_v62 = _ := KTake.take4 (W17 m ρ c) (by rw [k main_v1 (by decide)]; exact hs)
  dsimp only [W19]
  generalize W18 m ρ c = V18 at *
  after_results
  rw [ht, k3, k main_v49 (by decide), k main_v1 (by decide)]
  rfl

-- The column statistics of the perceptron's result, taken with a kept unit axis, are the rows of the reference's.
theorem stats : W23 m ρ c main_v72 = Spec.row32 (Spec.mean (W20 m ρ c main_v68))
    ∧ W23 m ρ c main_v73 = Spec.row32 (Spec.var (W20 m ρ c main_v68)) := by
  rw [← KRows.meanK_eq, ← KRows.varK_eq]
  dsimp only [W23, W22, W21]
  constructor
  · after_results
    rfl
  · after_results_simp
    simp only [StableHlo.TRef.ofBuf, StableHlo.TRef.toBuf, cast_eq]
    rfl

-- The scale and the shift, sliced before the perceptron region, enter the normalisation region as rows.
theorem rows : W23 m ρ c main_v74 = Spec.row32 (Spec.g2 (W16 m ρ c main_arg11))
    ∧ W23 m ρ c main_v75 = Spec.row32 (Spec.be2 (W16 m ρ c main_arg12)) := by
  obtain ⟨-, -, -, -, e32, e34⟩ := entry m ρ c
  rw [← e32, ← e34, ← W20_of_ne m ρ c main_v59 (by decide), ← W20_of_ne m ρ c main_v61 (by decide)]
  dsimp only [W23, W22, W21]
  constructor <;> after_results <;> exact KRows.reshape_row32 _

-- The layer's result is the reference's layer function of what the layer is entered with.
theorem out (hs : PreSrc.InRange (W16 m ρ c main_v1)) :
    W24 m ρ c main_v76 = Spec.layerB (W16 m ρ c main_v49) (W16 m ρ c main_v1) (W16 m ρ c main_v3)
      (Spec.wa2 (W16 m ρ c main_arg7)) (Spec.ba2 (W16 m ρ c main_arg8)) (Spec.wb2 (W16 m ρ c main_arg9))
      (Spec.bb2 (W16 m ρ c main_arg10)) (Spec.g2 (W16 m ρ c main_arg11)) (Spec.be2 (W16 m ρ c main_arg12)) := by
  obtain ⟨e24, e28, e39, e40, -, -⟩ := entry m ρ c
  have hz : W20 m ρ c main_v68 = Spec.mlpB (W19 m ρ c main_v49) (W19 m ρ c main_v65) (W19 m ρ c main_v51)
      (W19 m ρ c main_v66) (W19 m ρ c main_v55) (W19 m ρ c main_v67) := (W20_arr m ρ c 6).trans (KMlp4.value (V19 m ρ) c)
  rw [pre m ρ c main_v49 (by decide), agg m ρ c hs, e24, e39, e28, e40] at hz
  refine ((W24_arr m ρ c 5).trans (KBn5.value (V23 m ρ) c _ _ _ _ (rows m ρ c).1 (rows m ρ c).2 (stats m ρ c).1
    (stats m ρ c).2)).trans ?_
  show Spec.bnApply (W23 m ρ c main_v68) _ _ _ _ = _
  rw [post m ρ c main_v68 (by decide), hz]
  rfl

end Cert.KernelIdeal.KLayer2

end
-- ==== Proof.KMlp6.lean ====
import proofs.«430980_j44702019616883_2_alg».proof.Proof.KMlp2

noncomputable section

namespace Cert.KernelIdeal.KMlp6

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem value (c : Dev nD) :
    (Gen.dat6 (F := Ideal) V c).arrAt 6 cfg6.N
      = Cert.Gin.Spec.mlpB (F := Ideal) (V c main_v76) (V c main_v92) (V c main_v78) (V c main_v93) (V c main_v82) (V c main_v94) := by
  refine (dat6 V c).arrAt_eq_of_cover 6 _ (fun t _ => ?_) fun i =>
    (KMlp0.cover i).imp fun t h => ⟨flush6_6 t, KMlp0.mem_blk h⟩
  show (cfg6.win 6).cut (grid6.coords t) ((dat6 V c).after 6 t) = _
  rw [after6_6]
  exact KMlp2.block (V c main_v76) (V c main_v92) (V c main_v78) (V c main_v93) (V c main_v82) (V c main_v94) t

end Cert.KernelIdeal.KMlp6

end
-- ==== Proof.KBn7.lean ====
import proofs.«430980_j44702019616883_2_alg».proof.Proof.KBn

namespace Cert.KernelIdeal.KBn7

open Cert.KernelIdeal Cert.KernelIdeal.Gen Idealize.ShloMosaic Idealize.ShloMosaic.TcCoe

variable (V : (c : Dev nD) → (b : Ref sig .tc) → Buf (Elt Ideal) ((c : Thread nD τ).loc b))

-- Only the names are the region's own: the arithmetic is `KBn.tiles`, for any blocks that sit as `KBn.idx` says these do.
theorem value (c : Dev nD) (mu va g b : (⟨Cert.ReferenceIdeal.S32, .f32⟩ : BufTy).Contents (Elt Ideal))
    (hg : V c main_v101 = Cert.Gin.Spec.row32 g) (hb : V c main_v102 = Cert.Gin.Spec.row32 b)
    (hmu : V c main_v99 = Cert.Gin.Spec.row32 mu) (hva : V c main_v100 = Cert.Gin.Spec.row32 va) :
    (Gen.dat7 (F := Ideal) V c).arrAt 5 cfg7.N = Cert.Gin.Spec.bnApply (F := Ideal) (V c main_v95) mu va g b := by
  obtain ⟨hv, hc⟩ := KBn.tiles N_7 (V c main_v95) hg hb hmu hva win7_0.rect_emb_val win7_5.rect_emb_val
    win7_1.rect_emb_val win7_2.rect_emb_val win7_3.rect_emb_val win7_4.rect_emb_val KBn.idx
  exact KBn.arrAt_eq (dat7 V c) 5 _ flush7_5 (fun t y => (congrFun (after7_5 V c t) _).trans (hv t y)) hc

end Cert.KernelIdeal.KBn7
-- ==== Proof.KLayer3.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KKeep
import proofs.«430980_j44702019616883_2_alg».proof.Proof.KTake
import proofs.«430980_j44702019616883_2_alg».proof.Proof.KMlp6
import proofs.«430980_j44702019616883_2_alg».proof.Proof.KBn7

set_option maxRecDepth 16384

noncomputable section

namespace Cert.KernelIdeal.KLayer3

open Cert.KernelIdeal Cert.KernelIdeal.Gen Idealize.ShloMosaic Idealize.ShloMosaic.TcCoe Cert.Gin KKeep

variable (m : (ℓ : Loc nD τ sig) → Buf (Elt Ideal) ℓ) (ρ : Dev nD → PrngReg) (c : Dev nD)

-- The references whose contents the layer's lines must leave alone.
abbrev K : List (Ref sig .tc) := main_v76 :: main_v95 :: kept

theorem writes : Keeps K (hostOps6 (F := Ideal)) ∧ Keeps K (hostOps6_1 (F := Ideal)) ∧ Keeps K (hostOps6_2 (F := Ideal))
    ∧ Keeps K (hostOps7 (F := Ideal)) ∧ Keeps K (hostOps7_1 (F := Ideal)) ∧ Keeps K (hostOps7_2 (F := Ideal)) := by
  simp only [Keeps, hostOps6, hostOps6_1, hostOps6_2, hostOps7, hostOps7_1, hostOps7_2, List.Forall, StableHlo.nullary_writes, StableHlo.unary_writes,
    StableHlo.binary_writes, StableHlo.ternary_writes, StableHlo.reshape_writes, Finset.mem_singleton]
  repeat' apply And.intro
  all_goals exact fun r hr e => absurd (Proc.devRef_injective _ e ▸ hr) (by decide)

theorem pre (r : Ref sig .tc) (hr : r ∈ K) : W27 m ρ c r = W24 m ρ c r :=
  after3_of _ writes.1 writes.2.1 writes.2.2.1 hr

theorem post (r : Ref sig .tc) (hr : r ∈ K) : W31 m ρ c r = W28 m ρ c r :=
  after3_of _ writes.2.2.2.1 writes.2.2.2.2.1 writes.2.2.2.2.2 hr

-- A kept reference is written by no line of the layer and is no array of either region.
theorem keep (r : Ref sig .tc) (hr : r ∈ kept := by decide) : W32 m ρ c r = W24 m ρ c r := by
  have h : r ∈ K ∧ (∀ w, Pipeline.arrRef spec6 w ≠ r) ∧ ∀ w, Pipeline.arrRef spec7 w ≠ r := by
    revert r; decide
  exact (W32_of_ne m ρ c r h.2.2).trans ((post m ρ c r h.1).trans ((W28_of_ne m ρ c r h.2.1).trans (pre m ρ c r h.1)))

-- The perceptron region is entered with the layer's slices of the stacked weights, the biases as rows.
theorem entry : W27 m ρ c main_v78 = Spec.wa3 (W24 m ρ c main_arg7) ∧ W27 m ρ c main_v82 = Spec.wb3 (W24 m ρ c main_arg9)
    ∧ W27 m ρ c main_v93 = Spec.row32 (Spec.ba3 (W24 m ρ c main_arg8))
    ∧ W27 m ρ c main_v94 = Spec.row32 (Spec.bb3 (W24 m ρ c main_arg10))
    ∧ W27 m ρ c main_v86 = Spec.g3 (W24 m ρ c main_arg11) ∧ W27 m ρ c main_v88 = Spec.be3 (W24 m ρ c main_arg12) := by
  dsimp only [W27, W26, W25]
  refine ⟨?_, ?_, ?_, ?_, ?_, ?_⟩ <;> after_results <;> first | exact KRows.reshape_row32 _ | rfl

-- The neighbour sum: in range the take is the plain gather, and adding its rows into the destination rows is the reference's sum.
theorem agg (hs : PreSrc.InRange (W24 m ρ c main_v1)) :
    W27 m ρ c main_v92 = Spec.aggB (W24 m ρ c main_v76) (Spec.idx (W24 m ρ c main_v1)) (W24 m ρ c main_v3) := by
  have k (r : Ref sig .tc) (hr : r ∈ K) : W25 m ρ c r = W24 m ρ c r := after_of_keeps _ writes.1 hr
  have k3 : W26 m ρ c main_v3 = W24 m ρ c main_v3 := (after_of_keeps _ writes.2.1 (by decide)).trans (k _ (by decide))
  have ht : W26 m ρ c main_v89 = _ := KTake.take6 (W25 m ρ c) (by rw [k main_v1 (by decide)]; exact hs)
  dsimp only [W27]
  generalize W26 m ρ c = V26 at *
  after_results
  rw [ht, k3, k main_v76 (by decide), k main_v1 (by decide)]
  rfl

-- The column statistics of the perceptron's result, taken with a kept unit axis, are the rows of the reference's.
theorem stats : W31 m ρ c main_v99 = Spec.row32 (Spec.mean (W28 m ρ c main_v95))
    ∧ W31 m ρ c main_v100 = Spec.row32 (Spec.var (W28 m ρ c main_v95)) := by
  rw [← KRows.meanK_eq, ← KRows.varK_eq]
  dsimp only [W31, W30, W29]
  constructor
  · after_results
    rfl
  · after_results_simp
    simp only [StableHlo.TRef.ofBuf, StableHlo.TRef.toBuf, cast_eq]
    rfl

-- The scale and the shift, sliced before the perceptron region, enter the normalisation region as rows.
theorem rows : W31 m ρ c main_v101 = Spec.row32 (Spec.g3 (W24 m ρ c main_arg11))
    ∧ W31 m ρ c main_v102 = Spec.row32 (Spec.be3 (W24 m ρ c main_arg12)) := by
  obtain ⟨-, -, -, -, e32, e34⟩ := entry m ρ c
  rw [← e32, ← e34, ← W28_of_ne m ρ c main_v86 (by decide), ← W28_of_ne m ρ c main_v88 (by decide)]
  dsimp only [W31, W30, W29]
  constructor <;> after_results <;> exact KRows.reshape_row32 _

-- The layer's result is the reference's layer function of what the layer is entered with.
theorem out (hs : PreSrc.InRange (W24 m ρ c main_v1)) :
    W32 m ρ c main_v103 = Spec.layerB (W24 m ρ c main_v76) (W24 m ρ c main_v1) (W24 m ρ c main_v3)
      (Spec.wa3 (W24 m ρ c main_arg7)) (Spec.ba3 (W24 m ρ c main_arg8)) (Spec.wb3 (W24 m ρ c main_arg9))
      (Spec.bb3 (W24 m ρ c main_arg10)) (Spec.g3 (W24 m ρ c main_arg11)) (Spec.be3 (W24 m ρ c main_arg12)) := by
  obtain ⟨e24, e28, e39, e40, -, -⟩ := entry m ρ c
  have hz : W28 m ρ c main_v95 = Spec.mlpB (W27 m ρ c main_v76) (W27 m ρ c main_v92) (W27 m ρ c main_v78)
      (W27 m ρ c main_v93) (W27 m ρ c main_v82) (W27 m ρ c main_v94) := (W28_arr m ρ c 6).trans (KMlp6.value (V27 m ρ) c)
  rw [pre m ρ c main_v76 (by decide), agg m ρ c hs, e24, e39, e28, e40] at hz
  refine ((W32_arr m ρ c 5).trans (KBn7.value (V31 m ρ) c _ _ _ _ (rows m ρ c).1 (rows m ρ c).2 (stats m ρ c).1
    (stats m ρ c).2)).trans ?_
  show Spec.bnApply (W31 m ρ c main_v95) _ _ _ _ = _
  rw [post m ρ c main_v95 (by decide), hz]
  rfl

end Cert.KernelIdeal.KLayer3

end
-- ==== Proof.KMlp8.lean ====
import proofs.«430980_j44702019616883_2_alg».proof.Proof.KMlp2

noncomputable section

namespace Cert.KernelIdeal.KMlp8

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem value (c : Dev nD) :
    (Gen.dat8 (F := Ideal) V c).arrAt 6 cfg8.N
      = Cert.Gin.Spec.mlpB (F := Ideal) (V c main_v103) (V c main_v119) (V c main_v105) (V c main_v120) (V c main_v109) (V c main_v121) := by
  refine (dat8 V c).arrAt_eq_of_cover 6 _ (fun t _ => ?_) fun i =>
    (KMlp0.cover i).imp fun t h => ⟨flush8_6 t, KMlp0.mem_blk h⟩
  show (cfg8.win 6).cut (grid8.coords t) ((dat8 V c).after 6 t) = _
  rw [after8_6]
  exact KMlp2.block (V c main_v103) (V c main_v119) (V c main_v105) (V c main_v120) (V c main_v109) (V c main_v121) t

end Cert.KernelIdeal.KMlp8

end
-- ==== Proof.KBn9.lean ====
import proofs.«430980_j44702019616883_2_alg».proof.Proof.KBn

namespace Cert.KernelIdeal.KBn9

open Cert.KernelIdeal Cert.KernelIdeal.Gen Idealize.ShloMosaic Idealize.ShloMosaic.TcCoe

variable (V : (c : Dev nD) → (b : Ref sig .tc) → Buf (Elt Ideal) ((c : Thread nD τ).loc b))

-- Only the names are the region's own: the arithmetic is `KBn.tiles`, for any blocks that sit as `KBn.idx` says these do.
theorem value (c : Dev nD) (mu va g b : (⟨Cert.ReferenceIdeal.S32, .f32⟩ : BufTy).Contents (Elt Ideal))
    (hg : V c main_v128 = Cert.Gin.Spec.row32 g) (hb : V c main_v129 = Cert.Gin.Spec.row32 b)
    (hmu : V c main_v126 = Cert.Gin.Spec.row32 mu) (hva : V c main_v127 = Cert.Gin.Spec.row32 va) :
    (Gen.dat9 (F := Ideal) V c).arrAt 5 cfg9.N = Cert.Gin.Spec.bnApply (F := Ideal) (V c main_v122) mu va g b := by
  obtain ⟨hv, hc⟩ := KBn.tiles N_9 (V c main_v122) hg hb hmu hva win9_0.rect_emb_val win9_5.rect_emb_val
    win9_1.rect_emb_val win9_2.rect_emb_val win9_3.rect_emb_val win9_4.rect_emb_val KBn.idx
  exact KBn.arrAt_eq (dat9 V c) 5 _ flush9_5 (fun t y => (congrFun (after9_5 V c t) _).trans (hv t y)) hc

end Cert.KernelIdeal.KBn9
-- ==== Proof.KLayer4.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KKeep
import proofs.«430980_j44702019616883_2_alg».proof.Proof.KTake
import proofs.«430980_j44702019616883_2_alg».proof.Proof.KMlp8
import proofs.«430980_j44702019616883_2_alg».proof.Proof.KBn9

set_option maxRecDepth 16384

noncomputable section

namespace Cert.KernelIdeal.KLayer4

open Cert.KernelIdeal Cert.KernelIdeal.Gen Idealize.ShloMosaic Idealize.ShloMosaic.TcCoe Cert.Gin KKeep

variable (m : (ℓ : Loc nD τ sig) → Buf (Elt Ideal) ℓ) (ρ : Dev nD → PrngReg) (c : Dev nD)

-- The references whose contents the layer's lines must leave alone.
abbrev K : List (Ref sig .tc) := main_v103 :: main_v122 :: kept

theorem writes : Keeps K (hostOps8 (F := Ideal)) ∧ Keeps K (hostOps8_1 (F := Ideal)) ∧ Keeps K (hostOps8_2 (F := Ideal))
    ∧ Keeps K (hostOps9 (F := Ideal)) ∧ Keeps K (hostOps9_1 (F := Ideal)) ∧ Keeps K (hostOps9_2 (F := Ideal)) := by
  simp only [Keeps, hostOps8, hostOps8_1, hostOps8_2, hostOps9, hostOps9_1, hostOps9_2, List.Forall, StableHlo.nullary_writes, StableHlo.unary_writes,
    StableHlo.binary_writes, StableHlo.ternary_writes, StableHlo.reshape_writes, Finset.mem_singleton]
  repeat' apply And.intro
  all_goals exact fun r hr e => absurd (Proc.devRef_injective _ e ▸ hr) (by decide)

theorem pre (r : Ref sig .tc) (hr : r ∈ K) : W35 m ρ c r = W32 m ρ c r :=
  after3_of _ writes.1 writes.2.1 writes.2.2.1 hr

theorem post (r : Ref sig .tc) (hr : r ∈ K) : W39 m ρ c r = W36 m ρ c r :=
  after3_of _ writes.2.2.2.1 writes.2.2.2.2.1 writes.2.2.2.2.2 hr

-- A kept reference is written by no line of the layer and is no array of either region.
theorem keep (r : Ref sig .tc) (hr : r ∈ kept := by decide) : W40 m ρ c r = W32 m ρ c r := by
  have h : r ∈ K ∧ (∀ w, Pipeline.arrRef spec8 w ≠ r) ∧ ∀ w, Pipeline.arrRef spec9 w ≠ r := by
    revert r; decide
  exact (W40_of_ne m ρ c r h.2.2).trans ((post m ρ c r h.1).trans ((W36_of_ne m ρ c r h.2.1).trans (pre m ρ c r h.1)))

-- The perceptron region is entered with the layer's slices of the stacked weights, the biases as rows.
theorem entry : W35 m ρ c main_v105 = Spec.wa4 (W32 m ρ c main_arg7) ∧ W35 m ρ c main_v109 = Spec.wb4 (W32 m ρ c main_arg9)
    ∧ W35 m ρ c main_v120 = Spec.row32 (Spec.ba4 (W32 m ρ c main_arg8))
    ∧ W35 m ρ c main_v121 = Spec.row32 (Spec.bb4 (W32 m ρ c main_arg10))
    ∧ W35 m ρ c main_v113 = Spec.g4 (W32 m ρ c main_arg11) ∧ W35 m ρ c main_v115 = Spec.be4 (W32 m ρ c main_arg12) := by
  dsimp only [W35, W34, W33]
  refine ⟨?_, ?_, ?_, ?_, ?_, ?_⟩ <;> after_results <;> first | exact KRows.reshape_row32 _ | rfl

-- The neighbour sum: in range the take is the plain gather, and adding its rows into the destination rows is the reference's sum.
theorem agg (hs : PreSrc.InRange (W32 m ρ c main_v1)) :
    W35 m ρ c main_v119 = Spec.aggB (W32 m ρ c main_v103) (Spec.idx (W32 m ρ c main_v1)) (W32 m ρ c main_v3) := by
  have k (r : Ref sig .tc) (hr : r ∈ K) : W33 m ρ c r = W32 m ρ c r := after_of_keeps _ writes.1 hr
  have k3 : W34 m ρ c main_v3 = W32 m ρ c main_v3 := (after_of_keeps _ writes.2.1 (by decide)).trans (k _ (by decide))
  have ht : W34 m ρ c main_v116 = _ := KTake.take8 (W33 m ρ c) (by rw [k main_v1 (by decide)]; exact hs)
  dsimp only [W35]
  generalize W34 m ρ c = V34 at *
  after_results
  rw [ht, k3, k main_v103 (by decide), k main_v1 (by decide)]
  rfl

-- The column statistics of the perceptron's result, taken with a kept unit axis, are the rows of the reference's.
theorem stats : W39 m ρ c main_v126 = Spec.row32 (Spec.mean (W36 m ρ c main_v122))
    ∧ W39 m ρ c main_v127 = Spec.row32 (Spec.var (W36 m ρ c main_v122)) := by
  rw [← KRows.meanK_eq, ← KRows.varK_eq]
  dsimp only [W39, W38, W37]
  constructor
  · after_results
    rfl
  · after_results_simp
    simp only [StableHlo.TRef.ofBuf, StableHlo.TRef.toBuf, cast_eq]
    rfl

-- The scale and the shift, sliced before the perceptron region, enter the normalisation region as rows.
theorem rows : W39 m ρ c main_v128 = Spec.row32 (Spec.g4 (W32 m ρ c main_arg11))
    ∧ W39 m ρ c main_v129 = Spec.row32 (Spec.be4 (W32 m ρ c main_arg12)) := by
  obtain ⟨-, -, -, -, e32, e34⟩ := entry m ρ c
  rw [← e32, ← e34, ← W36_of_ne m ρ c main_v113 (by decide), ← W36_of_ne m ρ c main_v115 (by decide)]
  dsimp only [W39, W38, W37]
  constructor <;> after_results <;> exact KRows.reshape_row32 _

-- The layer's result is the reference's layer function of what the layer is entered with.
theorem out (hs : PreSrc.InRange (W32 m ρ c main_v1)) :
    W40 m ρ c main_v130 = Spec.layerB (W32 m ρ c main_v103) (W32 m ρ c main_v1) (W32 m ρ c main_v3)
      (Spec.wa4 (W32 m ρ c main_arg7)) (Spec.ba4 (W32 m ρ c main_arg8)) (Spec.wb4 (W32 m ρ c main_arg9))
      (Spec.bb4 (W32 m ρ c main_arg10)) (Spec.g4 (W32 m ρ c main_arg11)) (Spec.be4 (W32 m ρ c main_arg12)) := by
  obtain ⟨e24, e28, e39, e40, -, -⟩ := entry m ρ c
  have hz : W36 m ρ c main_v122 = Spec.mlpB (W35 m ρ c main_v103) (W35 m ρ c main_v119) (W35 m ρ c main_v105)
      (W35 m ρ c main_v120) (W35 m ρ c main_v109) (W35 m ρ c main_v121) := (W36_arr m ρ c 6).trans (KMlp8.value (V35 m ρ) c)
  rw [pre m ρ c main_v103 (by decide), agg m ρ c hs, e24, e39, e28, e40] at hz
  refine ((W40_arr m ρ c 5).trans (KBn9.value (V39 m ρ) c _ _ _ _ (rows m ρ c).1 (rows m ρ c).2 (stats m ρ c).1
    (stats m ρ c).2)).trans ?_
  show Spec.bnApply (W39 m ρ c main_v122) _ _ _ _ = _
  rw [post m ρ c main_v122 (by decide), hz]
  rfl

end Cert.KernelIdeal.KLayer4

end
-- ==== Proof.KReadout.lean ====
import proofs.«430980_j44702019616883_2_alg».proof.Proof.Gen.KernelIdeal.Frame
import proofs.«430980_j44702019616883_2_alg».proof.Proof.Spec
import Idealize.ShloMosaic.Lib.KernelVsHost
import Idealize.ShloMosaic.Lib.ValueLayout
import Idealize.ShloMosaic.Lib.ValueIdx
import Idealize.ShloMosaic.Lib.Pipeline.Value
import Idealize.ShloMosaic.PureOps.Reduce
import Idealize.ShloMosaic.PureOps.Ideal.Laws

noncomputable section

namespace Cert.KernelIdeal.KReadout

open Idealize.ShloMosaic Idealize.ShloMosaic.ValueIdx

section Layout
variable {α : Type}

theorem broadcastTo_oneRow_eq {m n : ℕ} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  rw [broadcastTo_1b_ab_apply, broadcastInDim_oneRow_apply]

theorem shapeCast_col_eq {a : ℕ} (v : (⟨1, ![a]⟩ : Shape).Idx → α)
    (h : (⟨1, ![a]⟩ : Shape).ShapeCasts ⟨2, ![a, 1]⟩)
    (hd : (⟨1, ![a]⟩ : Shape).BroadcastsInDim ⟨2, ![a, 1]⟩ ![0]) :
    shapeCast ⟨2, ![a, 1]⟩ v h = broadcastInDim ⟨2, ![a, 1]⟩ ![0] hd v := by
  funext i
  have hi0 : (i 0).val < a := (i 0).isLt
  have hi1 : (i 1).val < 1 := (i 1).isLt
  have e1 := shapeCast_apply v h i (ix1 (i 0 : Fin a)) (by
    rw [Shape.rowMajor_val_two, Shape.rowMajor_val_one]
    show (i 0).val = (i 0).val * 1 + (i 1).val
    omega)
  have e2 := broadcastInDim_apply ![0] hd v i (ix1 (i 0 : Fin a)) (by
    intro ax
    match ax with
    | ⟨0, _⟩ =>
      show (i 0).val = if a = 1 then 0 else (i 0).val
      split
      · omega
      · rfl)
  exact e1.trans e2.symm

theorem broadcastTo_oneCol_eq {a b : ℕ} (y : (⟨2, ![a, 1]⟩ : Shape).Idx → α)
    (hb : (⟨2, ![a, 1]⟩ : Shape).Broadcasts ⟨2, ![a, b]⟩)
    (hd : (⟨2, ![a, 1]⟩ : Shape).BroadcastsInDim ⟨2, ![a, b]⟩ ![0, 1]) :
    broadcastTo ⟨2, ![a, b]⟩ y hb = broadcastInDim ⟨2, ![a, b]⟩ ![0, 1] hd y := by
  funext i
  have hi0 : (i 0).val < a := (i 0).isLt
  have e1 := broadcastTo_apply y hb i (ix2 (i 0 : Fin a) (0 : Fin 1)) (by
    intro ax
    match ax with
    | ⟨0, _⟩ =>
      show (i 0).val = if a = 1 then 0 else (i 0).val
      split
      · omega
      · rfl
    | ⟨1, _⟩ => rfl)
  have e2 := broadcastInDim_apply ![0, 1] hd y i (ix2 (i 0 : Fin a) (0 : Fin 1)) (by
    intro ax
    match ax with
    | ⟨0, _⟩ =>
      show (i 0).val = if a = 1 then 0 else (i 0).val
      split
      · omega
      · rfl
    | ⟨1, _⟩ => rfl)
  exact e1.trans e2.symm

end Layout

section AtIdeal
variable {s t : Shape} {φ : FTy}

theorem broadcast_zero_eq (hb : (⟨0, ![]⟩ : Shape).BroadcastsInDim t (![] : Fin 0 → Fin t.rank)) :
    broadcast t (Scalar.ofBits (F := Ideal) .f32 0x00000000#32)
      = broadcastInDim t ![] hb (constant (F := Ideal) ⟨0, ![]⟩ .f32 0x00000000#32) :=
  (broadcastInDim_constant (F := Ideal) (s := ⟨0, ![]⟩) (φ := .f32) ![] hb 0x00000000#32).symm

theorem exp_eq_hostExp (x : FVec Ideal s φ) : exp x = Host.exp x := rfl
theorem log_eq_hostLog (x : FVec Ideal s φ) : log x = Host.log x := rfl

theorem rowMax_eq {a : Fin s.rank} (src : FVec Ideal s φ) (acc : BitVec φ.bits)
    (h : s.Reduces [a] t) (hφ : FKind.Formats φ) (hacc : acc = FKind.maximumf.neutral φ hφ)
    (h' : s.ReducesTo [a] t) (hu : 0 < (⟨0, ![]⟩ : Shape).numel)
    (hb : (⟨0, ![]⟩ : Shape).BroadcastsInDim t (![] : Fin 0 → Fin t.rank)) :
    multiReduction .maximumf [a] t src acc h hφ hacc
      = maximumf (broadcastInDim t ![] hb (constant (F := Ideal) ⟨0, ![]⟩ φ acc))
          (Host.reduce FloatOps.maximumf src (constant (F := Ideal) ⟨0, ![]⟩ φ acc) h' hu) := by
  funext j
  rw [Ideal.multiReduction_maximumf_single src acc h hφ hacc j]
  show _ = max (Ideal.ofBits φ acc) (Host.reduce FloatOps.maximumf src (constant (F := Ideal) ⟨0, ![]⟩ φ acc) h' hu j)
  rw [Host.reduce_eq_fold_single FloatOps.maximumf src _ h' h hu j]
  exact (max_eq_right ((Finset.le_fold_max _).mpr (Or.inl le_rfl))).symm

theorem rowSum_eq {a : Fin s.rank} (src : FVec Ideal s .f32)
    (h : s.Reduces [a] t) (hφ : FKind.Formats .f32) (hacc : (0x00000000#32 : BitVec 32) = FKind.add.neutral .f32 hφ)
    (h' : s.ReducesTo [a] t) (hu : 0 < (⟨0, ![]⟩ : Shape).numel) :
    multiReduction .add [a] t src 0x00000000#32 h hφ hacc
      = Host.reduceAdd src (constant (F := Ideal) ⟨0, ![]⟩ .f32 0x00000000#32) h' hu :=
  multiReduction_add_eq_hostReduceAdd src _ h hφ hacc _ h' hu Ideal.ofBits_zero_f32

end AtIdeal

section Payload

theorem dot1_eq : Cert.KernelIdeal.dot_S256x32_S32x32_S256x32_1_0_0_1_n_n
    = Cert.ReferenceIdeal.dot_S256x32_S32x32_S256x32_1_0_0_1_n_n := rfl
theorem dot2_eq : Cert.KernelIdeal.dot_S256x32_S32x10_S256x10_1_0_0_1_n_n
    = Cert.ReferenceIdeal.dot_S256x32_S32x10_S256x10_1_0_0_1_n_n := rfl

theorem pay_eq (x0 : Vec Ideal S256x32 .f32) (x1 : Vec Ideal S32x32 .f32) (x2 : Vec Ideal S1x32 .f32)
    (x3 : Vec Ideal S32x10 .f32) (x4 : Vec Ideal S1x10 .f32) :
    Gen.k10_pay1 (F := Ideal) x0 x1 x2 x3 x4 = Cert.Gin.Spec.readout (F := Ideal) x0 x1 x2 x3 x4 := by
  unfold Gen.k10_pay1 Cert.Gin.Spec.readout
  dsimp only

  rw [shapeCast_self x0, shapeCast_self x2, shapeCast_self x4]
  rw [broadcastTo_oneRow_eq x2 Gen.broadcasts_S1x32_S256x32 Cert.ReferenceIdeal.Facts₀.bcast_S1x32_S256x32_0_1,
    broadcastTo_oneRow_eq x4 Gen.broadcasts_S1x10_S256x10 Cert.ReferenceIdeal.Facts₀.bcast_S1x10_S256x10_0_1,
    broadcast_zero_eq (t := S256x32) Cert.ReferenceIdeal.Facts₀.bcast_S_S256x32]
  rw [matmul_zero_eq_dotGeneral, matmul_zero_eq_dotGeneral, dot1_eq, dot2_eq]

  rw [rowMax_eq (φ := .f32) (s := S256x10) (t := S256) (a := 1) _ 0xFF800000#32 Gen.reduces_S256x10_S256 (.inl rfl) rfl
    Cert.ReferenceIdeal.Facts₀.reducesTo_S256x10_S256_d1 Cert.ReferenceIdeal.Facts₀.h_S_
    Cert.ReferenceIdeal.Facts₀.bcast_S_S256]
  rw [shapeCast_col_eq _ Gen.shapeCasts_S256_S256x1 Cert.ReferenceIdeal.Facts₀.bcast_S256_S256x1_0,
    broadcastTo_oneCol_eq _ Gen.broadcasts_S256x1_S256x10 Cert.ReferenceIdeal.Facts₀.bcast_S256x1_S256x10_0_1]

  rw [exp_eq_hostExp, rowSum_eq (s := S256x10) (t := S256) (a := 1) _ Gen.reduces_S256x10_S256 (.inl rfl) rfl
    Cert.ReferenceIdeal.Facts₀.reducesTo_S256x10_S256_d1 Cert.ReferenceIdeal.Facts₀.h_S_]
  rw [shapeCast_col_eq _ Gen.shapeCasts_S256_S256x1 Cert.ReferenceIdeal.Facts₀.bcast_S256_S256x1_0, log_eq_hostLog,
    broadcastTo_oneCol_eq _ Gen.broadcasts_S256x1_S256x10 Cert.ReferenceIdeal.Facts₀.bcast_S256x1_S256x10_0_1]

end Payload

section Blocks

open Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem index_zero : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

theorem iblk0 (c : Dev nD) (t : Fin cfg10.N) : iblk10 V c 0 t = (V c main_v142 : Vec Ideal S256x32 .f32) := by
  funext y
  show V c main_v142 (((cfg10.win 0).blk t).view.emb y) = V c main_v142 y
  refine congrArg (V c main_v142) (funext fun a => Fin.ext ?_)
  obtain ⟨e0, e1, -⟩ := index_zero t
  match a with
  | ⟨0, _⟩ => show win10_0.index t (0 : Fin 2) * 256 + 1 * (y 0).val = (y 0).val; omega
  | ⟨1, _⟩ => show win10_0.index t (1 : Fin 2) * 32 + 1 * (y 1).val = (y 1).val; omega

theorem iblk1 (c : Dev nD) (t : Fin cfg10.N) : iblk10 V c 1 t = (V c main_arg13 : Vec Ideal S32x32 .f32) := by
  funext y
  show V c main_arg13 (((cfg10.win 1).blk t).view.emb y) = V c main_arg13 y
  refine congrArg (V c main_arg13) (funext fun a => Fin.ext ?_)
  obtain ⟨-, -, e0, e1, -⟩ := index_zero t
  match a with
  | ⟨0, _⟩ => show win10_1.index t (0 : Fin 2) * 32 + 1 * (y 0).val = (y 0).val; omega
  | ⟨1, _⟩ => show win10_1.index t (1 : Fin 2) * 32 + 1 * (y 1).val = (y 1).val; omega

theorem iblk2 (c : Dev nD) (t : Fin cfg10.N) : iblk10 V c 2 t = (V c main_v143 : Vec Ideal S1x32 .f32) := by
  funext y
  show V c main_v143 (((cfg10.win 2).blk t).view.emb y) = V c main_v143 y
  refine congrArg (V c main_v143) (funext fun a => Fin.ext ?_)
  obtain ⟨-, -, -, -, e0, e1, -⟩ := index_zero t
  match a with
  | ⟨0, _⟩ => show win10_2.index t (0 : Fin 2) * 1 + 1 * (y 0).val = (y 0).val; omega
  | ⟨1, _⟩ => show win10_2.index t (1 : Fin 2) * 32 + 1 * (y 1).val = (y 1).val; omega

theorem iblk3 (c : Dev nD) (t : Fin cfg10.N) : iblk10 V c 3 t = (V c main_arg15 : Vec Ideal S32x10 .f32) := by
  funext y
  show V c main_arg15 (((cfg10.win 3).blk t).view.emb y) = V c main_arg15 y
  refine congrArg (V c main_arg15) (funext fun a => Fin.ext ?_)
  obtain ⟨-, -, -, -, -, -, e0, e1, -⟩ := index_zero t
  match a with
  | ⟨0, _⟩ => show win10_3.index t (0 : Fin 2) * 32 + 1 * (y 0).val = (y 0).val; omega
  | ⟨1, _⟩ => show win10_3.index t (1 : Fin 2) * 10 + 1 * (y 1).val = (y 1).val; omega

theorem iblk4 (c : Dev nD) (t : Fin cfg10.N) : iblk10 V c 4 t = (V c main_v144 : Vec Ideal S1x10 .f32) := by
  funext y
  show V c main_v144 (((cfg10.win 4).blk t).view.emb y) = V c main_v144 y
  refine congrArg (V c main_v144) (funext fun a => Fin.ext ?_)
  obtain ⟨-, -, -, -, -, -, -, -, e0, e1, -⟩ := index_zero t
  match a with
  | ⟨0, _⟩ => show win10_4.index t (0 : Fin 2) * 1 + 1 * (y 0).val = (y 0).val; omega
  | ⟨1, _⟩ => show win10_4.index t (1 : Fin 2) * 10 + 1 * (y 1).val = (y 1).val; omega

theorem flushed_eq (c : Dev nD) (t : Fin cfg10.N) :
    (dat10 V c).flushed 5 t
      = ((cfg10.win 5).blk t).view.read (Elt Ideal)
          (Cert.Gin.Spec.readout (F := Ideal) (V c main_v142) (V c main_arg13) (V c main_v143) (V c main_arg15) (V c main_v144)) := by
  show (cfg10.win 5).cut (grid10.coords t) ((dat10 V c).after 5 t) = _
  rw [after10_5]
  unfold out10_5
  rw [View.canon_unit_zero zero_offsets]
  simp only [View.ld_unit_zero (S := S256x32) zero_offsets, View.ld_unit_zero (S := S32x32) zero_offsets,
    View.ld_unit_zero (S := S1x32) zero_offsets, View.ld_unit_zero (S := S32x10) zero_offsets,
    View.ld_unit_zero (S := S1x10) zero_offsets]
  rw [iblk0 V c t, iblk1 V c t, iblk2 V c t, iblk3 V c t, iblk4 V c t, pay_eq]
  funext j
  obtain ⟨-, -, -, -, -, -, -, -, -, -, e0, e1⟩ := index_zero t
  refine congrArg (Cert.Gin.Spec.readout (F := Ideal) (V c main_v142) (V c main_arg13) (V c main_v143) (V c main_arg15)
    (V c main_v144)) (funext fun a => Fin.ext ?_)
  match a with
  | ⟨0, _⟩ => show (j 0).val = win10_5.index t (0 : Fin 2) * 256 + 1 * (j 0).val; omega
  | ⟨1, _⟩ => show (j 1).val = win10_5.index t (1 : Fin 2) * 10 + 1 * (j 1).val; omega

theorem mem_blk (t : Fin cfg10.N) (i : S256x10.Idx) :
    i ∈ ((cfg10.win 5).blk t).view.set
      ↔ ∀ a : Fin 2, win10_5.index t a * S256x10.size a ≤ (i a).val
          ∧ (i a).val < win10_5.index t a * S256x10.size a + S256x10.size a := by
  show i ∈ ((View.whole main_v145).slice (win10_5.rect t)).set ↔ _
  rw [View.set_slice_whole, Rect.mem_set_unit]
  exact Iff.rfl

theorem covered (i : S256x10.Idx) :
    ∃ t : Fin cfg10.N, (cfg10.win 5).flush t = true ∧ i ∈ ((cfg10.win 5).blk t).view.set := by
  refine ⟨t10_0, flush10_5 _, ?_⟩
  rw [mem_blk]
  obtain ⟨-, -, -, -, -, -, -, -, -, -, e0, e1⟩ := index_zero t10_0
  have h0 : (i 0).val < 256 := (i 0).isLt
  have h1 : (i 1).val < 10 := (i 1).isLt
  intro a
  match a with
  | ⟨0, _⟩ =>
    show win10_5.index t10_0 (0 : Fin 2) * 256 ≤ (i 0).val ∧ (i 0).val < win10_5.index t10_0 (0 : Fin 2) * 256 + 256
    omega
  | ⟨1, _⟩ =>
    show win10_5.index t10_0 (1 : Fin 2) * 10 ≤ (i 1).val ∧ (i 1).val < win10_5.index t10_0 (1 : Fin 2) * 10 + 10
    omega

theorem value (c : Dev nD) :
    (dat10 (F := Ideal) V c).arrAt 5 cfg10.N
      = Cert.Gin.Spec.readout (F := Ideal) (V c main_v142) (V c main_arg13) (V c main_v143) (V c main_arg15) (V c main_v144) :=
  (dat10 V c).arrAt_eq_of_cover 5 _ (fun t _ => flushed_eq V c t) covered

end Blocks

end Cert.KernelIdeal.KReadout

end
-- ==== Proof.KTail.lean ====
import proofs.«430980_j44702019616883_2_alg».proof.Proof.Gen.KernelIdeal.Frame
import proofs.«430980_j44702019616883_2_alg».proof.Proof.Spec
import proofs.«430980_j44702019616883_2_alg».proof.Proof.KRows
import proofs.«430980_j44702019616883_2_alg».proof.Proof.KReadout

set_option maxRecDepth 16384

noncomputable section

namespace Cert.KernelIdeal.KTail

open Cert.KernelIdeal Cert.KernelIdeal.Gen Idealize.ShloMosaic Idealize.ShloMosaic.TcCoe Cert.Gin

variable (m : (ℓ : Loc nD τ sig) → Buf (Elt Ideal) ℓ) (ρ : Dev nD → PrngReg) (c : Dev nD)

theorem pooled : W41 m ρ c main_v142 = Spec.pool (W40 m ρ c main_v130) (W40 m ρ c main_arg2) := by
  dsimp only [W41]
  after_results
  rfl

theorem entry : W41 m ρ c main_arg13 = W40 m ρ c main_arg13 ∧ W41 m ρ c main_v143 = Spec.row32 (W40 m ρ c main_arg14)
    ∧ W41 m ρ c main_arg15 = W40 m ρ c main_arg15 ∧ W41 m ρ c main_v144 = Spec.row10 (W40 m ρ c main_arg16) := by
  dsimp only [W41]
  refine ⟨?_, ?_, ?_, ?_⟩ <;> after_results <;> exact KRows.reshape_row _ _ _

-- The last line pools the features as the reference does and casts the two biases to rows; then comes the readout.
theorem out : W42 m ρ c main_v145 = Spec.readout (Spec.pool (W40 m ρ c main_v130) (W40 m ρ c main_arg2))
    (W40 m ρ c main_arg13) (Spec.row32 (W40 m ρ c main_arg14)) (W40 m ρ c main_arg15)
    (Spec.row10 (W40 m ρ c main_arg16)) := by
  obtain ⟨e13, e143, e15, e144⟩ := entry m ρ c
  refine ((W42_arr m ρ c 5).trans (KReadout.value (V41 m ρ) c)).trans ?_
  show Spec.readout (W41 m ρ c main_v142) (W41 m ρ c main_arg13) (W41 m ρ c main_v143) (W41 m ρ c main_arg15)
    (W41 m ρ c main_v144) = _
  rw [pooled m ρ c, e13, e143, e15, e144]

end Cert.KernelIdeal.KTail

end
-- ==== Proof.KValue.lean ====
import proofs.«430980_j44702019616883_2_alg».proof.Proof.KLayer0
import proofs.«430980_j44702019616883_2_alg».proof.Proof.KLayer1
import proofs.«430980_j44702019616883_2_alg».proof.Proof.KLayer2
import proofs.«430980_j44702019616883_2_alg».proof.Proof.KLayer3
import proofs.«430980_j44702019616883_2_alg».proof.Proof.KLayer4
import proofs.«430980_j44702019616883_2_alg».proof.Proof.KTail

set_option maxRecDepth 16384

noncomputable section

namespace Cert.KernelIdeal.KValue

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

-- Every layer keeps the index rows and the stacked arguments, so the six equations compose to the reference's network.
theorem value (hsrc : Cert.Gin.PreSrc.InRange (Cert.Gin.PreSrc.srcOf (m ((c : Thread nD τ).loc main_arg1)))) :
    W42 (F := Ideal) m ρ c (Proc.devRef .tc main_v145) = Cert.Gin.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨e1, e3, -, -⟩ := KLayer0.first m ρ c
  have i1 := (KLayer0.keep m ρ c main_v1).trans e1
  have i3 := (KLayer0.keep m ρ c main_v3).trans e3
  have s8 : Cert.Gin.PreSrc.InRange (W8 m ρ c main_v1) := by rw [i1]; exact hsrc
  have s16 : Cert.Gin.PreSrc.InRange (W16 m ρ c main_v1) := by rw [KLayer1.keep m ρ c main_v1]; exact s8
  have s24 : Cert.Gin.PreSrc.InRange (W24 m ρ c main_v1) := by rw [KLayer2.keep m ρ c main_v1]; exact s16
  have s32 : Cert.Gin.PreSrc.InRange (W32 m ρ c main_v1) := by rw [KLayer3.keep m ρ c main_v1]; exact s24
  rw [KTail.out m ρ c, KLayer4.out m ρ c s32, KLayer3.out m ρ c s24, KLayer2.out m ρ c s16, KLayer1.out m ρ c s8,
    KLayer0.out m ρ c hsrc]
  simp (disch := decide) only [@KLayer4.keep m ρ c, @KLayer3.keep m ρ c, @KLayer2.keep m ρ c, @KLayer1.keep m ρ c,
    @KLayer0.kept_arg m ρ c, i1, i3]
  rfl

end Cert.KernelIdeal.KValue

end
-- ==== Proof.ROps.lean ====
import proofs.«430980_j44702019616883_2_alg».proof.Proof.Gen.ReferenceIdeal
import Idealize.ShloMosaic.Lib.StableHlo.Run
import Idealize.ShloMosaic.Lib.Pipeline.Regions

set_option maxRecDepth 16384

noncomputable section

namespace Cert.ReferenceIdeal.RStages

open Cert.ReferenceIdeal Cert.ReferenceIdeal.Facts₀ Idealize.ShloMosaic Idealize.ShloMosaic.TcCoe Idealize.SL.Sem Idealize.ShloMosaic.StableHlo

variable {F : FTy → Type} [FloatOps F]

abbrev pre : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    unary main_arg11 main_v4 (extractStridedSlice S1x32 ![0, 0] · slices_S5x32_S1x32_0_0),
    reshape main_v4 main_v5 rfl shapeCasts_S1x32_S32,
    unary main_arg12 main_v6 (extractStridedSlice S1x32 ![0, 0] · slices_S5x32_S1x32_0_0),
    reshape main_v6 main_v7 rfl shapeCasts_S1x32_S32 ]

abbrev A1 : List (HloOp τ sig (Elt F)) :=
  [ nullary main_c (constantI S_ 32 0#32),
    unary main_c main_v8 (broadcastInDim S1600000 ![] bcast_S_S1600000),
    binary main_v1 main_v8 main_v9 (cmpi .slt),
    nullary main_c_0 (constantI S_ 32 100000#32),
    unary main_c_0 main_v10 (broadcastInDim S1600000 ![] bcast_S_S1600000),
    binary main_v1 main_v10 main_v11 (addi),
    ternary main_v9 main_v11 main_v1 main_v12 (select),
    unary main_v12 main_v13 (broadcastInDim S1600000x1 ![0] bcast_S1600000_S1600000x1_0),
    binary main_arg0 main_v13 main_v14 (fun x i => Host.gather gather_S100000x64_S1600000x1_S1600000x64_1_0_n_n_0_1_164 x i),
    nullary main_cst (constant S_ .f32 0x00000000#32),
    unary main_cst main_v15 (broadcastInDim S100000x64 ![] bcast_S_S100000x64),
    unary main_v3 main_v16 (broadcastInDim S1600000x1 ![0] bcast_S1600000_S1600000x1_0),
    ternary main_v15 main_v16 main_v14 main_v17 (fun x i u => Host.scatterAdd scatter_S100000x64_S1600000x1_S1600000x64_1_0_0_1 x i u),
    binary main_arg0 main_v17 main_v18 (addf),
    binary main_v18 main_arg3 main_v19 (fun l r => Host.dotGeneral dot_S100000x64_S64x32_S100000x32_1_0_0_1_n_n none l r),
    unary main_arg4 main_v20 (broadcastInDim S1x32 ![1] bcast_S32_S1x32_1),
    unary main_v20 main_v21 (broadcastInDim S100000x32 ![0, 1] bcast_S1x32_S100000x32_0_1),
    binary main_v19 main_v21 main_v22 (addf),
    nullary main_cst_1 (constant S_ .f32 0x00000000#32),
    unary main_cst_1 main_v23 (broadcastInDim S100000x32 ![] bcast_S_S100000x32),
    binary main_v22 main_v23 main_v24 (maximumf),
    binary main_v24 main_arg5 main_v25 (fun l r => Host.dotGeneral dot_S100000x32_S32x32_S100000x32_1_0_0_1_n_n none l r),
    unary main_arg6 main_v26 (broadcastInDim S1x32 ![1] bcast_S32_S1x32_1),
    unary main_v26 main_v27 (broadcastInDim S100000x32 ![0, 1] bcast_S1x32_S100000x32_0_1),
    binary main_v25 main_v27 main_v28 (addf),
    nullary main_cst_2 (constant S_ .f32 0x00000000#32),
    unary main_cst_2 main_v29 (broadcastInDim S100000x32 ![] bcast_S_S100000x32),
    binary main_v28 main_v29 main_v30 (maximumf) ]

abbrev B1a : List (HloOp τ sig (Elt F)) :=
  [ nullary main_cst_3 (constant S_ .f32 0x00000000#32),
    binary main_v30 main_cst_3 main_v31 (fun x v => Host.reduceAdd x v reducesTo_S100000x32_S32_d0 h_S_),
    nullary main_cst_4 (constant S_ .f32 0x47C35000#32),
    unary main_cst_4 main_v32 (broadcastInDim S32 ![] bcast_S_S32),
    binary main_v31 main_v32 main_v33 (Host.divf),
    nullary main_c_5 (constantI S_ 32 0#32) ]

abbrev B1b : List (HloOp τ sig (Elt F)) :=
  [ TRef.nullary main_call0.cst (constant S_ .f32 0x00000000#32),
    TRef.binary (.of main_v30 : TRef sig ⟨S100000x32, .f32⟩) main_call0.cst main_call0.v0 (fun x v => Host.reduceAdd x v reducesTo_S100000x32_S32_d0 h_S_),
    TRef.unary main_call0.v0 main_call0.v1 (broadcastInDim S1x32 ![1] bcast_S32_S1x32_1),
    TRef.nullary main_call0.cst_0 (constant S_ .f32 0x47C35000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S100000x32 ![0, 1] bcast_S1x32_S100000x32_0_1),
    TRef.binary (.of main_v30 : TRef sig ⟨S100000x32, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32) ]

abbrev B1c : List (HloOp τ sig (Elt F)) :=
  [ TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b) ]

abbrev B1d : List (HloOp τ sig (Elt F)) :=
  [ unary main_v33 main_v35 (broadcastInDim S1x32 ![1] bcast_S32_S1x32_1),
    unary main_v35 main_v36 (broadcastInDim S100000x32 ![0, 1] bcast_S1x32_S100000x32_0_1),
    binary main_v30 main_v36 main_v37 (subf),
    unary main_v5 main_v38 (broadcastInDim S1x32 ![1] bcast_S32_S1x32_1),
    unary main_v38 main_v39 (broadcastInDim S100000x32 ![0, 1] bcast_S1x32_S100000x32_0_1),
    binary main_v39 main_v37 main_v40 (mulf),
    nullary main_cst_6 (constant S_ .f32 0x3727C5AC#32),
    unary main_cst_6 main_v41 (broadcastInDim S32 ![] bcast_S_S32),
    binary main_v34 main_v41 main_v42 (addf),
    unary main_v42 main_v43 (Host.rsqrt),
    unary main_v43 main_v44 (broadcastInDim S1x32 ![1] bcast_S32_S1x32_1),
    unary main_v44 main_v45 (broadcastInDim S100000x32 ![0, 1] bcast_S1x32_S100000x32_0_1),
    binary main_v40 main_v45 main_v46 (mulf),
    unary main_v7 main_v47 (broadcastInDim S1x32 ![1] bcast_S32_S1x32_1),
    unary main_v47 main_v48 (broadcastInDim S100000x32 ![0, 1] bcast_S1x32_S100000x32_0_1),
    binary main_v46 main_v48 main_v49 (addf) ]

abbrev A2a : List (HloOp τ sig (Elt F)) :=
  [ unary main_arg7 main_v50 (extractStridedSlice S1x32x32 ![0, 0, 0] · slices_S4x32x32_S1x32x32_0_0_0) ]

abbrev A2b : List (HloOp τ sig (Elt F)) :=
  [ reshape main_v50 main_v51 rfl shapeCasts_S1x32x32_S32x32,
    unary main_arg8 main_v52 (extractStridedSlice S1x32 ![0, 0] · slices_S4x32_S1x32_0_0),
    reshape main_v52 main_v53 rfl shapeCasts_S1x32_S32,
    unary main_arg9 main_v54 (extractStridedSlice S1x32x32 ![0, 0, 0] · slices_S4x32x32_S1x32x32_0_0_0),
    reshape main_v54 main_v55 rfl shapeCasts_S1x32x32_S32x32,
    unary main_arg10 main_v56 (extractStridedSlice S1x32 ![0, 0] · slices_S4x32_S1x32_0_0),
    reshape main_v56 main_v57 rfl shapeCasts_S1x32_S32,
    unary main_arg11 main_v58 (extractStridedSlice S1x32 ![1, 0] · slices_S5x32_S1x32_1_0),
    reshape main_v58 main_v59 rfl shapeCasts_S1x32_S32,
    unary main_arg12 main_v60 (extractStridedSlice S1x32 ![1, 0] · slices_S5x32_S1x32_1_0),
    reshape main_v60 main_v61 rfl shapeCasts_S1x32_S32,
    nullary main_c_7 (constantI S_ 32 0#32),
    unary main_c_7 main_v62 (broadcastInDim S1600000 ![] bcast_S_S1600000),
    binary main_v1 main_v62 main_v63 (cmpi .slt),
    nullary main_c_8 (constantI S_ 32 100000#32),
    unary main_c_8 main_v64 (broadcastInDim S1600000 ![] bcast_S_S1600000),
    binary main_v1 main_v64 main_v65 (addi),
    ternary main_v63 main_v65 main_v1 main_v66 (select),
    unary main_v66 main_v67 (broadcastInDim S1600000x1 ![0] bcast_S1600000_S1600000x1_0),
    binary main_v49 main_v67 main_v68 (fun x i => Host.gather gather_S100000x32_S1600000x1_S1600000x32_1_0_n_n_0_1_132 x i),
    nullary main_cst_9 (constant S_ .f32 0x00000000#32),
    unary main_cst_9 main_v69 (broadcastInDim S100000x32 ![] bcast_S_S100000x32),
    unary main_v3 main_v70 (broadcastInDim S1600000x1 ![0] bcast_S1600000_S1600000x1_0),
    ternary main_v69 main_v70 main_v68 main_v71 (fun x i u => Host.scatterAdd scatter_S100000x32_S1600000x1_S1600000x32_1_0_0_1 x i u),
    binary main_v49 main_v71 main_v72 (addf),
    binary main_v72 main_v51 main_v73 (fun l r => Host.dotGeneral dot_S100000x32_S32x32_S100000x32_1_0_0_1_n_n none l r),
    unary main_v53 main_v74 (broadcastInDim S1x32 ![1] bcast_S32_S1x32_1),
    unary main_v74 main_v75 (broadcastInDim S100000x32 ![0, 1] bcast_S1x32_S100000x32_0_1),
    binary main_v73 main_v75 main_v76 (addf),
    nullary main_cst_10 (constant S_ .f32 0x00000000#32),
    unary main_cst_10 main_v77 (broadcastInDim S100000x32 ![] bcast_S_S100000x32),
    binary main_v76 main_v77 main_v78 (maximumf),
    binary main_v78 main_v55 main_v79 (fun l r => Host.dotGeneral dot_S100000x32_S32x32_S100000x32_1_0_0_1_n_n none l r),
    unary main_v57 main_v80 (broadcastInDim S1x32 ![1] bcast_S32_S1x32_1),
    unary main_v80 main_v81 (broadcastInDim S100000x32 ![0, 1] bcast_S1x32_S100000x32_0_1),
    binary main_v79 main_v81 main_v82 (addf),
    nullary main_cst_11 (constant S_ .f32 0x00000000#32),
    unary main_cst_11 main_v83 (broadcastInDim S100000x32 ![] bcast_S_S100000x32),
    binary main_v82 main_v83 main_v84 (maximumf) ]

abbrev B2a : List (HloOp τ sig (Elt F)) :=
  [ nullary main_cst_12 (constant S_ .f32 0x00000000#32),
    binary main_v84 main_cst_12 main_v85 (fun x v => Host.reduceAdd x v reducesTo_S100000x32_S32_d0 h_S_),
    nullary main_cst_13 (constant S_ .f32 0x47C35000#32),
    unary main_cst_13 main_v86 (broadcastInDim S32 ![] bcast_S_S32),
    binary main_v85 main_v86 main_v87 (Host.divf),
    nullary main_c_14 (constantI S_ 32 0#32) ]

abbrev B2b : List (HloOp τ sig (Elt F)) :=
  [ TRef.nullary main_call1.cst (constant S_ .f32 0x00000000#32),
    TRef.binary (.of main_v84 : TRef sig ⟨S100000x32, .f32⟩) main_call1.cst main_call1.v0 (fun x v => Host.reduceAdd x v reducesTo_S100000x32_S32_d0 h_S_),
    TRef.unary main_call1.v0 main_call1.v1 (broadcastInDim S1x32 ![1] bcast_S32_S1x32_1),
    TRef.nullary main_call1.cst_0 (constant S_ .f32 0x47C35000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S100000x32 ![0, 1] bcast_S1x32_S100000x32_0_1),
    TRef.binary (.of main_v84 : TRef sig ⟨S100000x32, .f32⟩) main_call1.v4 main_call1.v5 subf,
    TRef.binary main_call1.v5 main_call1.v5 main_call1.v6 mulf,
    TRef.unary (.of main_c_14 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x32_S32_d0 h_S_),
    TRef.unary main_call1.v8 main_call1.v10 (broadcastInDim S32 ![] bcast_S_S32),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32) ]

abbrev B2c : List (HloOp τ sig (Elt F)) :=
  [ TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b) ]

abbrev B2d : List (HloOp τ sig (Elt F)) :=
  [ unary main_v87 main_v89 (broadcastInDim S1x32 ![1] bcast_S32_S1x32_1),
    unary main_v89 main_v90 (broadcastInDim S100000x32 ![0, 1] bcast_S1x32_S100000x32_0_1),
    binary main_v84 main_v90 main_v91 (subf),
    unary main_v59 main_v92 (broadcastInDim S1x32 ![1] bcast_S32_S1x32_1),
    unary main_v92 main_v93 (broadcastInDim S100000x32 ![0, 1] bcast_S1x32_S100000x32_0_1),
    binary main_v93 main_v91 main_v94 (mulf),
    nullary main_cst_15 (constant S_ .f32 0x3727C5AC#32),
    unary main_cst_15 main_v95 (broadcastInDim S32 ![] bcast_S_S32),
    binary main_v88 main_v95 main_v96 (addf),
    unary main_v96 main_v97 (Host.rsqrt),
    unary main_v97 main_v98 (broadcastInDim S1x32 ![1] bcast_S32_S1x32_1),
    unary main_v98 main_v99 (broadcastInDim S100000x32 ![0, 1] bcast_S1x32_S100000x32_0_1),
    binary main_v94 main_v99 main_v100 (mulf),
    unary main_v61 main_v101 (broadcastInDim S1x32 ![1] bcast_S32_S1x32_1) ]

abbrev B2e : List (HloOp τ sig (Elt F)) :=
  [ unary main_v101 main_v102 (broadcastInDim S100000x32 ![0, 1] bcast_S1x32_S100000x32_0_1),
    binary main_v100 main_v102 main_v103 (addf) ]

abbrev A3 : List (HloOp τ sig (Elt F)) :=
  [ unary main_arg7 main_v104 (extractStridedSlice S1x32x32 ![1, 0, 0] · slices_S4x32x32_S1x32x32_1_0_0),
    reshape main_v104 main_v105 rfl shapeCasts_S1x32x32_S32x32,
    unary main_arg8 main_v106 (extractStridedSlice S1x32 ![1, 0] · slices_S4x32_S1x32_1_0),
    reshape main_v106 main_v107 rfl shapeCasts_S1x32_S32,
    unary main_arg9 main_v108 (extractStridedSlice S1x32x32 ![1, 0, 0] · slices_S4x32x32_S1x32x32_1_0_0),
    reshape main_v108 main_v109 rfl shapeCasts_S1x32x32_S32x32,
    unary main_arg10 main_v110 (extractStridedSlice S1x32 ![1, 0] · slices_S4x32_S1x32_1_0),
    reshape main_v110 main_v111 rfl shapeCasts_S1x32_S32,
    unary main_arg11 main_v112 (extractStridedSlice S1x32 ![2, 0] · slices_S5x32_S1x32_2_0),
    reshape main_v112 main_v113 rfl shapeCasts_S1x32_S32,
    unary main_arg12 main_v114 (extractStridedSlice S1x32 ![2, 0] · slices_S5x32_S1x32_2_0),
    reshape main_v114 main_v115 rfl shapeCasts_S1x32_S32,
    nullary main_c_16 (constantI S_ 32 0#32),
    unary main_c_16 main_v116 (broadcastInDim S1600000 ![] bcast_S_S1600000),
    binary main_v1 main_v116 main_v117 (cmpi .slt),
    nullary main_c_17 (constantI S_ 32 100000#32),
    unary main_c_17 main_v118 (broadcastInDim S1600000 ![] bcast_S_S1600000),
    binary main_v1 main_v118 main_v119 (addi),
    ternary main_v117 main_v119 main_v1 main_v120 (select),
    unary main_v120 main_v121 (broadcastInDim S1600000x1 ![0] bcast_S1600000_S1600000x1_0),
    binary main_v103 main_v121 main_v122 (fun x i => Host.gather gather_S100000x32_S1600000x1_S1600000x32_1_0_n_n_0_1_132 x i),
    nullary main_cst_18 (constant S_ .f32 0x00000000#32),
    unary main_cst_18 main_v123 (broadcastInDim S100000x32 ![] bcast_S_S100000x32),
    unary main_v3 main_v124 (broadcastInDim S1600000x1 ![0] bcast_S1600000_S1600000x1_0),
    ternary main_v123 main_v124 main_v122 main_v125 (fun x i u => Host.scatterAdd scatter_S100000x32_S1600000x1_S1600000x32_1_0_0_1 x i u),
    binary main_v103 main_v125 main_v126 (addf),
    binary main_v126 main_v105 main_v127 (fun l r => Host.dotGeneral dot_S100000x32_S32x32_S100000x32_1_0_0_1_n_n none l r),
    unary main_v107 main_v128 (broadcastInDim S1x32 ![1] bcast_S32_S1x32_1),
    unary main_v128 main_v129 (broadcastInDim S100000x32 ![0, 1] bcast_S1x32_S100000x32_0_1),
    binary main_v127 main_v129 main_v130 (addf),
    nullary main_cst_19 (constant S_ .f32 0x00000000#32),
    unary main_cst_19 main_v131 (broadcastInDim S100000x32 ![] bcast_S_S100000x32),
    binary main_v130 main_v131 main_v132 (maximumf),
    binary main_v132 main_v109 main_v133 (fun l r => Host.dotGeneral dot_S100000x32_S32x32_S100000x32_1_0_0_1_n_n none l r),
    unary main_v111 main_v134 (broadcastInDim S1x32 ![1] bcast_S32_S1x32_1),
    unary main_v134 main_v135 (broadcastInDim S100000x32 ![0, 1] bcast_S1x32_S100000x32_0_1),
    binary main_v133 main_v135 main_v136 (addf),
    nullary main_cst_20 (constant S_ .f32 0x00000000#32),
    unary main_cst_20 main_v137 (broadcastInDim S100000x32 ![] bcast_S_S100000x32),
    binary main_v136 main_v137 main_v138 (maximumf) ]

abbrev B3a : List (HloOp τ sig (Elt F)) :=
  [ nullary main_cst_21 (constant S_ .f32 0x00000000#32),
    binary main_v138 main_cst_21 main_v139 (fun x v => Host.reduceAdd x v reducesTo_S100000x32_S32_d0 h_S_),
    nullary main_cst_22 (constant S_ .f32 0x47C35000#32),
    unary main_cst_22 main_v140 (broadcastInDim S32 ![] bcast_S_S32),
    binary main_v139 main_v140 main_v141 (Host.divf),
    nullary main_c_23 (constantI S_ 32 0#32) ]

abbrev B3b : List (HloOp τ sig (Elt F)) :=
  [ TRef.nullary main_call2.cst (constant S_ .f32 0x00000000#32),
    TRef.binary (.of main_v138 : TRef sig ⟨S100000x32, .f32⟩) main_call2.cst main_call2.v0 (fun x v => Host.reduceAdd x v reducesTo_S100000x32_S32_d0 h_S_),
    TRef.unary main_call2.v0 main_call2.v1 (broadcastInDim S1x32 ![1] bcast_S32_S1x32_1),
    TRef.nullary main_call2.cst_0 (constant S_ .f32 0x47C35000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S100000x32 ![0, 1] bcast_S1x32_S100000x32_0_1),
    TRef.binary (.of main_v138 : TRef sig ⟨S100000x32, .f32⟩) main_call2.v4 main_call2.v5 subf,
    TRef.binary main_call2.v5 main_call2.v5 main_call2.v6 mulf,
    TRef.unary (.of main_c_23 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32) ]

abbrev B3c : List (HloOp τ sig (Elt F)) :=
  [ TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b) ]

abbrev B3d : List (HloOp τ sig (Elt F)) :=
  [ unary main_v141 main_v143 (broadcastInDim S1x32 ![1] bcast_S32_S1x32_1),
    unary main_v143 main_v144 (broadcastInDim S100000x32 ![0, 1] bcast_S1x32_S100000x32_0_1),
    binary main_v138 main_v144 main_v145 (subf),
    unary main_v113 main_v146 (broadcastInDim S1x32 ![1] bcast_S32_S1x32_1),
    unary main_v146 main_v147 (broadcastInDim S100000x32 ![0, 1] bcast_S1x32_S100000x32_0_1),
    binary main_v147 main_v145 main_v148 (mulf),
    nullary main_cst_24 (constant S_ .f32 0x3727C5AC#32),
    unary main_cst_24 main_v149 (broadcastInDim S32 ![] bcast_S_S32),
    binary main_v142 main_v149 main_v150 (addf),
    unary main_v150 main_v151 (Host.rsqrt),
    unary main_v151 main_v152 (broadcastInDim S1x32 ![1] bcast_S32_S1x32_1) ]

abbrev B3e : List (HloOp τ sig (Elt F)) :=
  [ unary main_v152 main_v153 (broadcastInDim S100000x32 ![0, 1] bcast_S1x32_S100000x32_0_1),
    binary main_v148 main_v153 main_v154 (mulf),
    unary main_v115 main_v155 (broadcastInDim S1x32 ![1] bcast_S32_S1x32_1),
    unary main_v155 main_v156 (broadcastInDim S100000x32 ![0, 1] bcast_S1x32_S100000x32_0_1),
    binary main_v154 main_v156 main_v157 (addf) ]

abbrev A4 : List (HloOp τ sig (Elt F)) :=
  [ unary main_arg7 main_v158 (extractStridedSlice S1x32x32 ![2, 0, 0] · slices_S4x32x32_S1x32x32_2_0_0),
    reshape main_v158 main_v159 rfl shapeCasts_S1x32x32_S32x32,
    unary main_arg8 main_v160 (extractStridedSlice S1x32 ![2, 0] · slices_S4x32_S1x32_2_0),
    reshape main_v160 main_v161 rfl shapeCasts_S1x32_S32,
    unary main_arg9 main_v162 (extractStridedSlice S1x32x32 ![2, 0, 0] · slices_S4x32x32_S1x32x32_2_0_0),
    reshape main_v162 main_v163 rfl shapeCasts_S1x32x32_S32x32,
    unary main_arg10 main_v164 (extractStridedSlice S1x32 ![2, 0] · slices_S4x32_S1x32_2_0),
    reshape main_v164 main_v165 rfl shapeCasts_S1x32_S32,
    unary main_arg11 main_v166 (extractStridedSlice S1x32 ![3, 0] · slices_S5x32_S1x32_3_0),
    reshape main_v166 main_v167 rfl shapeCasts_S1x32_S32,
    unary main_arg12 main_v168 (extractStridedSlice S1x32 ![3, 0] · slices_S5x32_S1x32_3_0),
    reshape main_v168 main_v169 rfl shapeCasts_S1x32_S32,
    nullary main_c_25 (constantI S_ 32 0#32),
    unary main_c_25 main_v170 (broadcastInDim S1600000 ![] bcast_S_S1600000),
    binary main_v1 main_v170 main_v171 (cmpi .slt),
    nullary main_c_26 (constantI S_ 32 100000#32),
    unary main_c_26 main_v172 (broadcastInDim S1600000 ![] bcast_S_S1600000),
    binary main_v1 main_v172 main_v173 (addi),
    ternary main_v171 main_v173 main_v1 main_v174 (select),
    unary main_v174 main_v175 (broadcastInDim S1600000x1 ![0] bcast_S1600000_S1600000x1_0),
    binary main_v157 main_v175 main_v176 (fun x i => Host.gather gather_S100000x32_S1600000x1_S1600000x32_1_0_n_n_0_1_132 x i),
    nullary main_cst_27 (constant S_ .f32 0x00000000#32),
    unary main_cst_27 main_v177 (broadcastInDim S100000x32 ![] bcast_S_S100000x32),
    unary main_v3 main_v178 (broadcastInDim S1600000x1 ![0] bcast_S1600000_S1600000x1_0),
    ternary main_v177 main_v178 main_v176 main_v179 (fun x i u => Host.scatterAdd scatter_S100000x32_S1600000x1_S1600000x32_1_0_0_1 x i u),
    binary main_v157 main_v179 main_v180 (addf),
    binary main_v180 main_v159 main_v181 (fun l r => Host.dotGeneral dot_S100000x32_S32x32_S100000x32_1_0_0_1_n_n none l r),
    unary main_v161 main_v182 (broadcastInDim S1x32 ![1] bcast_S32_S1x32_1),
    unary main_v182 main_v183 (broadcastInDim S100000x32 ![0, 1] bcast_S1x32_S100000x32_0_1),
    binary main_v181 main_v183 main_v184 (addf),
    nullary main_cst_28 (constant S_ .f32 0x00000000#32),
    unary main_cst_28 main_v185 (broadcastInDim S100000x32 ![] bcast_S_S100000x32),
    binary main_v184 main_v185 main_v186 (maximumf),
    binary main_v186 main_v163 main_v187 (fun l r => Host.dotGeneral dot_S100000x32_S32x32_S100000x32_1_0_0_1_n_n none l r),
    unary main_v165 main_v188 (broadcastInDim S1x32 ![1] bcast_S32_S1x32_1),
    unary main_v188 main_v189 (broadcastInDim S100000x32 ![0, 1] bcast_S1x32_S100000x32_0_1),
    binary main_v187 main_v189 main_v190 (addf),
    nullary main_cst_29 (constant S_ .f32 0x00000000#32),
    unary main_cst_29 main_v191 (broadcastInDim S100000x32 ![] bcast_S_S100000x32),
    binary main_v190 main_v191 main_v192 (maximumf) ]

abbrev B4a : List (HloOp τ sig (Elt F)) :=
  [ nullary main_cst_30 (constant S_ .f32 0x00000000#32),
    binary main_v192 main_cst_30 main_v193 (fun x v => Host.reduceAdd x v reducesTo_S100000x32_S32_d0 h_S_),
    nullary main_cst_31 (constant S_ .f32 0x47C35000#32),
    unary main_cst_31 main_v194 (broadcastInDim S32 ![] bcast_S_S32),
    binary main_v193 main_v194 main_v195 (Host.divf),
    nullary main_c_32 (constantI S_ 32 0#32) ]

abbrev B4b : List (HloOp τ sig (Elt F)) :=
  [ TRef.nullary main_call3.cst (constant S_ .f32 0x00000000#32),
    TRef.binary (.of main_v192 : TRef sig ⟨S100000x32, .f32⟩) main_call3.cst main_call3.v0 (fun x v => Host.reduceAdd x v reducesTo_S100000x32_S32_d0 h_S_),
    TRef.unary main_call3.v0 main_call3.v1 (broadcastInDim S1x32 ![1] bcast_S32_S1x32_1),
    TRef.nullary main_call3.cst_0 (constant S_ .f32 0x47C35000#32),
    TRef.unary main_call3.cst_0 main_call3.v2 (broadcastInDim S1x32 ![] bcast_S_S1x32),
    TRef.binary main_call3.v1 main_call3.v2 main_call3.v3 Host.divf,
    TRef.unary main_call3.v3 main_call3.v4 (broadcastInDim S100000x32 ![0, 1] bcast_S1x32_S100000x32_0_1),
    TRef.binary (.of main_v192 : TRef sig ⟨S100000x32, .f32⟩) main_call3.v4 main_call3.v5 subf,
    TRef.binary main_call3.v5 main_call3.v5 main_call3.v6 mulf,
    TRef.unary (.of main_c_32 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x32_S32_d0 h_S_),
    TRef.unary main_call3.v8 main_call3.v10 (broadcastInDim S32 ![] bcast_S_S32),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32) ]

abbrev B4c : List (HloOp τ sig (Elt F)) :=
  [ TRef.unary main_call3.cst_4 main_call3.call0.v0 id,
    TRef.unary main_call3.call0.v0 main_call3.call0.v1 (broadcastInDim S32 ![] bcast_S_S32),
    TRef.ternary main_call3.v12 main_call3.v11 main_call3.call0.v1 main_call3.call0.v2 (fun p a b => select (broadcastInDim S32 ![] bcast_S_S32 p) a b) ]

abbrev B4d : List (HloOp τ sig (Elt F)) :=
  [ unary main_v195 main_v197 (broadcastInDim S1x32 ![1] bcast_S32_S1x32_1),
    unary main_v197 main_v198 (broadcastInDim S100000x32 ![0, 1] bcast_S1x32_S100000x32_0_1),
    binary main_v192 main_v198 main_v199 (subf),
    unary main_v167 main_v200 (broadcastInDim S1x32 ![1] bcast_S32_S1x32_1),
    unary main_v200 main_v201 (broadcastInDim S100000x32 ![0, 1] bcast_S1x32_S100000x32_0_1),
    binary main_v201 main_v199 main_v202 (mulf),
    nullary main_cst_33 (constant S_ .f32 0x3727C5AC#32),
    unary main_cst_33 main_v203 (broadcastInDim S32 ![] bcast_S_S32) ]

abbrev B4e : List (HloOp τ sig (Elt F)) :=
  [ binary main_v196 main_v203 main_v204 (addf),
    unary main_v204 main_v205 (Host.rsqrt),
    unary main_v205 main_v206 (broadcastInDim S1x32 ![1] bcast_S32_S1x32_1),
    unary main_v206 main_v207 (broadcastInDim S100000x32 ![0, 1] bcast_S1x32_S100000x32_0_1),
    binary main_v202 main_v207 main_v208 (mulf),
    unary main_v169 main_v209 (broadcastInDim S1x32 ![1] bcast_S32_S1x32_1),
    unary main_v209 main_v210 (broadcastInDim S100000x32 ![0, 1] bcast_S1x32_S100000x32_0_1),
    binary main_v208 main_v210 main_v211 (addf) ]

abbrev A5 : List (HloOp τ sig (Elt F)) :=
  [ unary main_arg7 main_v212 (extractStridedSlice S1x32x32 ![3, 0, 0] · slices_S4x32x32_S1x32x32_3_0_0),
    reshape main_v212 main_v213 rfl shapeCasts_S1x32x32_S32x32,
    unary main_arg8 main_v214 (extractStridedSlice S1x32 ![3, 0] · slices_S4x32_S1x32_3_0),
    reshape main_v214 main_v215 rfl shapeCasts_S1x32_S32,
    unary main_arg9 main_v216 (extractStridedSlice S1x32x32 ![3, 0, 0] · slices_S4x32x32_S1x32x32_3_0_0),
    reshape main_v216 main_v217 rfl shapeCasts_S1x32x32_S32x32,
    unary main_arg10 main_v218 (extractStridedSlice S1x32 ![3, 0] · slices_S4x32_S1x32_3_0),
    reshape main_v218 main_v219 rfl shapeCasts_S1x32_S32,
    unary main_arg11 main_v220 (extractStridedSlice S1x32 ![4, 0] · slices_S5x32_S1x32_4_0),
    reshape main_v220 main_v221 rfl shapeCasts_S1x32_S32,
    unary main_arg12 main_v222 (extractStridedSlice S1x32 ![4, 0] · slices_S5x32_S1x32_4_0),
    reshape main_v222 main_v223 rfl shapeCasts_S1x32_S32,
    nullary main_c_34 (constantI S_ 32 0#32),
    unary main_c_34 main_v224 (broadcastInDim S1600000 ![] bcast_S_S1600000),
    binary main_v1 main_v224 main_v225 (cmpi .slt),
    nullary main_c_35 (constantI S_ 32 100000#32),
    unary main_c_35 main_v226 (broadcastInDim S1600000 ![] bcast_S_S1600000),
    binary main_v1 main_v226 main_v227 (addi),
    ternary main_v225 main_v227 main_v1 main_v228 (select),
    unary main_v228 main_v229 (broadcastInDim S1600000x1 ![0] bcast_S1600000_S1600000x1_0),
    binary main_v211 main_v229 main_v230 (fun x i => Host.gather gather_S100000x32_S1600000x1_S1600000x32_1_0_n_n_0_1_132 x i),
    nullary main_cst_36 (constant S_ .f32 0x00000000#32),
    unary main_cst_36 main_v231 (broadcastInDim S100000x32 ![] bcast_S_S100000x32),
    unary main_v3 main_v232 (broadcastInDim S1600000x1 ![0] bcast_S1600000_S1600000x1_0),
    ternary main_v231 main_v232 main_v230 main_v233 (fun x i u => Host.scatterAdd scatter_S100000x32_S1600000x1_S1600000x32_1_0_0_1 x i u),
    binary main_v211 main_v233 main_v234 (addf),
    binary main_v234 main_v213 main_v235 (fun l r => Host.dotGeneral dot_S100000x32_S32x32_S100000x32_1_0_0_1_n_n none l r),
    unary main_v215 main_v236 (broadcastInDim S1x32 ![1] bcast_S32_S1x32_1),
    unary main_v236 main_v237 (broadcastInDim S100000x32 ![0, 1] bcast_S1x32_S100000x32_0_1),
    binary main_v235 main_v237 main_v238 (addf),
    nullary main_cst_37 (constant S_ .f32 0x00000000#32),
    unary main_cst_37 main_v239 (broadcastInDim S100000x32 ![] bcast_S_S100000x32),
    binary main_v238 main_v239 main_v240 (maximumf),
    binary main_v240 main_v217 main_v241 (fun l r => Host.dotGeneral dot_S100000x32_S32x32_S100000x32_1_0_0_1_n_n none l r),
    unary main_v219 main_v242 (broadcastInDim S1x32 ![1] bcast_S32_S1x32_1),
    unary main_v242 main_v243 (broadcastInDim S100000x32 ![0, 1] bcast_S1x32_S100000x32_0_1),
    binary main_v241 main_v243 main_v244 (addf),
    nullary main_cst_38 (constant S_ .f32 0x00000000#32),
    unary main_cst_38 main_v245 (broadcastInDim S100000x32 ![] bcast_S_S100000x32),
    binary main_v244 main_v245 main_v246 (maximumf) ]

abbrev B5a : List (HloOp τ sig (Elt F)) :=
  [ nullary main_cst_39 (constant S_ .f32 0x00000000#32),
    binary main_v246 main_cst_39 main_v247 (fun x v => Host.reduceAdd x v reducesTo_S100000x32_S32_d0 h_S_),
    nullary main_cst_40 (constant S_ .f32 0x47C35000#32),
    unary main_cst_40 main_v248 (broadcastInDim S32 ![] bcast_S_S32),
    binary main_v247 main_v248 main_v249 (Host.divf),
    nullary main_c_41 (constantI S_ 32 0#32) ]

abbrev B5b : List (HloOp τ sig (Elt F)) :=
  [ TRef.nullary main_call4.cst (constant S_ .f32 0x00000000#32),
    TRef.binary (.of main_v246 : TRef sig ⟨S100000x32, .f32⟩) main_call4.cst main_call4.v0 (fun x v => Host.reduceAdd x v reducesTo_S100000x32_S32_d0 h_S_),
    TRef.unary main_call4.v0 main_call4.v1 (broadcastInDim S1x32 ![1] bcast_S32_S1x32_1),
    TRef.nullary main_call4.cst_0 (constant S_ .f32 0x47C35000#32),
    TRef.unary main_call4.cst_0 main_call4.v2 (broadcastInDim S1x32 ![] bcast_S_S1x32),
    TRef.binary main_call4.v1 main_call4.v2 main_call4.v3 Host.divf,
    TRef.unary main_call4.v3 main_call4.v4 (broadcastInDim S100000x32 ![0, 1] bcast_S1x32_S100000x32_0_1),
    TRef.binary (.of main_v246 : TRef sig ⟨S100000x32, .f32⟩) main_call4.v4 main_call4.v5 subf,
    TRef.binary main_call4.v5 main_call4.v5 main_call4.v6 mulf,
    TRef.unary (.of main_c_41 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x32_S32_d0 h_S_),
    TRef.unary main_call4.v8 main_call4.v10 (broadcastInDim S32 ![] bcast_S_S32),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32) ]

abbrev B5c : List (HloOp τ sig (Elt F)) :=
  [ TRef.unary main_call4.cst_4 main_call4.call0.v0 id,
    TRef.unary main_call4.call0.v0 main_call4.call0.v1 (broadcastInDim S32 ![] bcast_S_S32),
    TRef.ternary main_call4.v12 main_call4.v11 main_call4.call0.v1 main_call4.call0.v2 (fun p a b => select (broadcastInDim S32 ![] bcast_S_S32 p) a b) ]

abbrev B5d : List (HloOp τ sig (Elt F)) :=
  [ unary main_v249 main_v251 (broadcastInDim S1x32 ![1] bcast_S32_S1x32_1),
    unary main_v251 main_v252 (broadcastInDim S100000x32 ![0, 1] bcast_S1x32_S100000x32_0_1),
    binary main_v246 main_v252 main_v253 (subf),
    unary main_v221 main_v254 (broadcastInDim S1x32 ![1] bcast_S32_S1x32_1),
    unary main_v254 main_v255 (broadcastInDim S100000x32 ![0, 1] bcast_S1x32_S100000x32_0_1) ]

abbrev B5e : List (HloOp τ sig (Elt F)) :=
  [ binary main_v255 main_v253 main_v256 (mulf),
    nullary main_cst_42 (constant S_ .f32 0x3727C5AC#32),
    unary main_cst_42 main_v257 (broadcastInDim S32 ![] bcast_S_S32),
    binary main_v250 main_v257 main_v258 (addf),
    unary main_v258 main_v259 (Host.rsqrt),
    unary main_v259 main_v260 (broadcastInDim S1x32 ![1] bcast_S32_S1x32_1),
    unary main_v260 main_v261 (broadcastInDim S100000x32 ![0, 1] bcast_S1x32_S100000x32_0_1),
    binary main_v256 main_v261 main_v262 (mulf),
    unary main_v223 main_v263 (broadcastInDim S1x32 ![1] bcast_S32_S1x32_1),
    unary main_v263 main_v264 (broadcastInDim S100000x32 ![0, 1] bcast_S1x32_S100000x32_0_1),
    binary main_v262 main_v264 main_v265 (addf) ]

abbrev poolL : List (HloOp τ sig (Elt F)) :=
  [ nullary main_cst_43 (constant S_ .f32 0x3F800000#32),
    unary main_cst_43 main_v266 (broadcastInDim S100000 ![] bcast_S_S100000),
    nullary main_cst_44 (constant S_ .f32 0x00000000#32),
    unary main_cst_44 main_v267 (broadcastInDim S256 ![] bcast_S_S256),
    unary main_arg2 main_v268 (broadcastInDim S100000x1 ![0] bcast_S100000_S100000x1_0),
    ternary main_v267 main_v268 main_v266 main_v269 (fun x i u => Host.scatterAdd scatter_S256_S100000x1_S100000_n_0_0_1 x i u),
    nullary main_cst_45 (constant S_ .f32 0x00000000#32),
    unary main_cst_45 main_v270 (broadcastInDim S256x32 ![] bcast_S_S256x32),
    unary main_arg2 main_v271 (broadcastInDim S100000x1 ![0] bcast_S100000_S100000x1_0),
    ternary main_v270 main_v271 main_v265 main_v272 (fun x i u => Host.scatterAdd scatter_S256x32_S100000x1_S100000x32_1_0_0_1 x i u),
    nullary main_cst_46 (constant S_ .f32 0x3F800000#32),
    unary main_cst_46 main_v273 (broadcastInDim S256 ![] bcast_S_S256),
    binary main_v269 main_v273 main_v274 (maximumf),
    unary main_v274 main_v275 (broadcastInDim S256x1 ![0] bcast_S256_S256x1_0),
    unary main_v275 main_v276 (broadcastInDim S256x32 ![0, 1] bcast_S256x1_S256x32_0_1),
    binary main_v272 main_v276 main_v277 (Host.divf) ]

abbrev readLa : List (HloOp τ sig (Elt F)) :=
  [ binary main_v277 main_arg13 main_v278 (fun l r => Host.dotGeneral dot_S256x32_S32x32_S256x32_1_0_0_1_n_n none l r),
    unary main_arg14 main_v279 (broadcastInDim S1x32 ![1] bcast_S32_S1x32_1),
    unary main_v279 main_v280 (broadcastInDim S256x32 ![0, 1] bcast_S1x32_S256x32_0_1),
    binary main_v278 main_v280 main_v281 (addf),
    nullary main_cst_47 (constant S_ .f32 0x00000000#32),
    unary main_cst_47 main_v282 (broadcastInDim S256x32 ![] bcast_S_S256x32),
    binary main_v281 main_v282 main_v283 (maximumf),
    binary main_v283 main_arg15 main_v284 (fun l r => Host.dotGeneral dot_S256x32_S32x10_S256x10_1_0_0_1_n_n none l r),
    unary main_arg16 main_v285 (broadcastInDim S1x10 ![1] bcast_S10_S1x10_1),
    unary main_v285 main_v286 (broadcastInDim S256x10 ![0, 1] bcast_S1x10_S256x10_0_1),
    binary main_v284 main_v286 main_v287 (addf) ]

abbrev readLb : List (HloOp τ sig (Elt F)) :=
  [ TRef.nullary main_call5.cst (constant S_ .f32 0xFF800000#32),
    TRef.binary (.of main_v287 : TRef sig ⟨S256x10, .f32⟩) main_call5.cst main_call5.v0 (fun x v => Host.reduce FloatOps.maximumf x v reducesTo_S256x10_S256_d1 h_S_),
    TRef.nullary main_call5.cst_0 (constant S_ .f32 0xFF800000#32),
    TRef.unary main_call5.cst_0 main_call5.v1 (broadcastInDim S256 ![] bcast_S_S256),
    TRef.binary main_call5.v1 main_call5.v0 main_call5.v2 maximumf,
    TRef.unary main_call5.v2 main_call5.v3 (broadcastInDim S256x1 ![0] bcast_S256_S256x1_0),
    TRef.unary main_call5.v3 main_call5.v4 (broadcastInDim S256x10 ![0, 1] bcast_S256x1_S256x10_0_1),
    TRef.binary (.of main_v287 : TRef sig ⟨S256x10, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S256x10_S256_d1 h_S_),
    TRef.unary main_call5.v7 main_call5.v8 (broadcastInDim S256x1 ![0] bcast_S256_S256x1_0),
    TRef.unary main_call5.v8 main_call5.v9 Host.log,
    TRef.unary main_call5.v9 main_call5.v10 (broadcastInDim S256x10 ![0, 1] bcast_S256x1_S256x10_0_1),
    TRef.binary main_call5.v5 main_call5.v10 main_call5.v11 subf ]

def B1 : List (HloOp τ sig (Elt F)) := B1a ++ B1b ++ B1c ++ B1d
def A2 : List (HloOp τ sig (Elt F)) := A2a ++ A2b
def B2 : List (HloOp τ sig (Elt F)) := B2a ++ B2b ++ B2c ++ B2d ++ B2e
def B3 : List (HloOp τ sig (Elt F)) := B3a ++ B3b ++ B3c ++ B3d ++ B3e
def B4 : List (HloOp τ sig (Elt F)) := B4a ++ B4b ++ B4c ++ B4d ++ B4e
def B5 : List (HloOp τ sig (Elt F)) := B5a ++ B5b ++ B5c ++ B5d ++ B5e
def readL : List (HloOp τ sig (Elt F)) := readLa ++ readLb

abbrev items : List (List (HloOp τ sig (Elt F))) :=
  [pre, A1, B1a, B1b, B1c, B1d, A2a, A2b, B2a, B2b, B2c, B2d, B2e, A3, B3a, B3b, B3c, B3d, B3e, A4, B4a, B4b, B4c, B4d, B4e, A5, B5a, B5b, B5c, B5d, B5e, poolL, readLa, readLb]

def ops : List (HloOp τ sig (Elt F)) :=
  pre ++ (A1 ++ (B1 ++ (A2 ++ (B2 ++ (A3 ++ (B3 ++ (A4 ++ (B4 ++ (A5 ++ (B5 ++ (poolL ++ (readL))))))))))))

end Cert.ReferenceIdeal.RStages

end
-- ==== Proof.RRun.lean ====
import proofs.«430980_j44702019616883_2_alg».proof.Proof.ROps
import proofs.«430980_j44702019616883_2_alg».proof.Proof.Gen.Pre_finite_inputs
import proofs.«430980_j44702019616883_2_alg».proof.Defs
import Idealize.ShloMosaic.Lib.StableHlo.Run
import Idealize.ShloMosaic.Lib.Pipeline.Regions

set_option maxRecDepth 16384

noncomputable section

namespace Cert.ReferenceIdeal.RRun

open Cert.ReferenceIdeal Cert.ReferenceIdeal.Gen Cert.ReferenceIdeal.RStages Idealize.ShloMosaic Idealize.ShloMosaic.TcCoe Idealize.SL.Sem Idealize.ShloMosaic.StableHlo

section Lines

variable {n : Nat} {t : Topo} {s : RefSig} {Val : EltTy → Type} {L : Labels}

-- Straight lines run one after the other are the one line of all their operations.
theorem chain_map_seq : ∀ ls : List (List (HloOp t s Val)),
    Pipeline.chain (ls.map fun l => (seq l : Prog (TpuEff n t s Val L .tc) PUnit)) = seq ls.flatten
  | [] => rfl
  | l :: ls => by rw [List.map_cons, Pipeline.chain_cons, List.flatten_cons, seq_append, chain_map_seq ls]

theorem forall_mem_flatten {p : HloOp t s Val → Prop} {ls : List (List (HloOp t s Val))}
    (h : ls.Forall fun l => ∀ op ∈ l, p op) : ∀ op ∈ ls.flatten, p op := fun op hop => by
  obtain ⟨l, hl, hol⟩ := List.mem_flatten.mp hop
  exact List.forall_iff_forall_mem.mp h l hl op hol

end Lines

variable {F : FTy → Type} [FloatOps F]

abbrev HostProg (F : FTy → Type) [FloatOps F] : Type 1 :=
  Prog (TpuEff nD τ sig (Elt F) (Pipeline.Sig Λ₀ (Fin 0) fun p => (pcfgs (F := F) p).Adm) .tc) PUnit

theorem items_flatten : (items (F := F)).flatten = ops := by
  simp only [items, ops, B1, A2, B2, B3, B4, B5, readL, List.flatten_cons, List.flatten_nil, List.append_nil, List.append_assoc]

-- Each window of @main is its items in a row: both sides unfold to the same sequence of steps.
theorem main_part0_chain (c : Dev nD) : main_part0 (F := F) c = (Pipeline.chainK [seq pre, seq A1, seq B1a, seq B1b, seq B1c, seq B1d] (seq A2a) : HostProg F) := by
  chain_rfl
theorem main_part1_chain (c : Dev nD) : main_part1 (F := F) c = (Pipeline.chainK [seq A2b, seq B2a, seq B2b, seq B2c] (seq B2d) : HostProg F) := by
  chain_rfl
theorem main_part2_chain (c : Dev nD) : main_part2 (F := F) c = (Pipeline.chainK [seq B2e, seq A3, seq B3a, seq B3b, seq B3c] (seq B3d) : HostProg F) := by
  chain_rfl
theorem main_part3_chain (c : Dev nD) : main_part3 (F := F) c = (Pipeline.chainK [seq B3e, seq A4, seq B4a, seq B4b, seq B4c] (seq B4d) : HostProg F) := by
  chain_rfl
theorem main_part4_chain (c : Dev nD) : main_part4 (F := F) c = (Pipeline.chainK [seq B4e, seq A5, seq B5a, seq B5b, seq B5c] (seq B5d) : HostProg F) := by
  chain_rfl
theorem main_part5_chain (c : Dev nD) : main_part5 (F := F) c = (Pipeline.chain [seq B5e, seq poolL, seq readLa, seq readLb] : HostProg F) := by
  chain_rfl

theorem main_chain (c : Dev nD) : main (F := F) c = (Pipeline.chain ((items (F := F)).map fun l => seq l) : HostProg F) := by
  show (main_part0 (F := F) c >>= fun _ => main_part1 (F := F) c >>= fun _ => main_part2 (F := F) c >>= fun _ =>
    main_part3 (F := F) c >>= fun _ => main_part4 (F := F) c >>= fun _ => main_part5 (F := F) c) = _
  rewrite [main_part5_chain, main_part4_chain, Pipeline.chainK_bind_chain, main_part3_chain, Pipeline.chainK_bind_chain,
    main_part2_chain, Pipeline.chainK_bind_chain, main_part1_chain, Pipeline.chainK_bind_chain,
    main_part0_chain, Pipeline.chainK_bind_chain]
  chain_rfl

theorem main_eq (c : Dev nD) : main (F := F) c = seq (ops (F := F)) := by
  rw [main_chain c, ← items_flatten]
  exact chain_map_seq _

abbrev win0 : List (List (HloOp τ sig (Elt F))) := [pre, A1, B1a, B1b, B1c, B1d, A2a]
abbrev win1 : List (List (HloOp τ sig (Elt F))) := [A2b, B2a, B2b, B2c, B2d]
abbrev win2 : List (List (HloOp τ sig (Elt F))) := [B2e, A3, B3a, B3b, B3c, B3d]
abbrev win3 : List (List (HloOp τ sig (Elt F))) := [B3e, A4, B4a, B4b, B4c, B4d]
abbrev win4 : List (List (HloOp τ sig (Elt F))) := [B4e, A5, B5a, B5b, B5c, B5d]
abbrev win5 : List (List (HloOp τ sig (Elt F))) := [B5e, poolL, readLa, readLb]

theorem forall_mem_ops {p : HloOp τ sig (Elt F) → Prop} (h0 : ∀ l ∈ win0 (F := F), ∀ op ∈ l, p op) (h1 : ∀ l ∈ win1 (F := F), ∀ op ∈ l, p op)
    (h2 : ∀ l ∈ win2 (F := F), ∀ op ∈ l, p op) (h3 : ∀ l ∈ win3 (F := F), ∀ op ∈ l, p op) (h4 : ∀ l ∈ win4 (F := F), ∀ op ∈ l, p op)
    (h5 : ∀ l ∈ win5 (F := F), ∀ op ∈ l, p op) : ∀ op ∈ ops (F := F), p op := by
  rw [← items_flatten]
  intro op hop
  obtain ⟨l, hl, hol⟩ := List.mem_flatten.mp hop
  have hw : l ∈ win0 (F := F) ++ (win1 ++ (win2 ++ (win3 ++ (win4 ++ win5)))) := hl
  simp only [List.mem_append] at hw
  rcases hw with h | h | h | h | h | h
  exacts [h0 l h op hol, h1 l h op hol, h2 l h op hol, h3 l h op hol, h4 l h op hol, h5 l h op hol]

macro "each_mem " t:tacticSeq : tactic =>
  `(tactic| (intro _ h; (repeat (cases h with | head => $t | tail _ h => ?_)); exact nomatch h))

-- Every operation reads and writes references of the one core and determines its results: window by window, operation by operation.
theorem win0_ok : ∀ l ∈ win0 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))
theorem win1_ok : ∀ l ∈ win1 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))
theorem win2_ok : ∀ l ∈ win2 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))
theorem win3_ok : ∀ l ∈ win3 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))
theorem win4_ok : ∀ l ∈ win4 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))
theorem win5_ok : ∀ l ∈ win5 (F := F), ∀ op ∈ l, op.bufs ⊆ tcRefs τ sig ∧ op.fresh = ∅ := by
  each_mem (each_mem (exact ⟨by simp only [nullary_bufs_sub, unary_bufs_sub, binary_bufs_sub, ternary_bufs_sub, reshape_bufs_sub], rfl⟩))

theorem ops_ok : ∀ op ∈ ops (F := F), op.bufs ⊆ tcRefs τ sig ∧ op.fresh = ∅ :=
  forall_mem_ops win0_ok win1_ok win2_ok win3_ok win4_ok win5_ok

theorem scopedRefs_eq : (Finset.univ.filter fun b : Ref sig .tc => b.isScoped) = ∅ := by decide
theorem scopedSems_eq : (Finset.univ.filter fun sm : SemLoc sig => sm.isScoped .tc) = ∅ := by decide

-- Every weakly fair execution of @main ends with each buffer at the fold of the operations over the launch contents.
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (ops (F := F)) (launchContents m c) (Proc.devRef .tc b) :=
  run_seq scopedRefs_eq scopedSems_eq defs main (fun _ => ops) main_eq
    (fun _ => List.forall_iff_forall_mem.mpr fun op h => (ops_ok op h).1) m ρ
    (hfresh := fun _ op h => (ops_ok op h).2)

abbrev argRefs : List (Ref sig .tc) :=
  [ main_arg0, main_arg1, main_arg2, main_arg3, main_arg4, main_arg5, main_arg6, main_arg7, main_arg8,
    main_arg9, main_arg10, main_arg11, main_arg12, main_arg13, main_arg14, main_arg15, main_arg16 ]

theorem ne_of_mem_args {b y : Ref sig .tc} (hb : b ∈ argRefs) (hy : y ∉ argRefs) : b ≠ y :=
  fun e => hy (e ▸ hb)

-- No operation writes an argument buffer: each writes its one result buffer, none of the seventeen.
section Keeps
variable (b : Ref sig .tc) (hb : b ∈ argRefs)
include hb
theorem win0_keeps : ∀ l ∈ win0 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))
theorem win1_keeps : ∀ l ∈ win1 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))
theorem win2_keeps : ∀ l ∈ win2 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))
theorem win3_keeps : ∀ l ∈ win3 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))
theorem win4_keeps : ∀ l ∈ win4 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))
theorem win5_keeps : ∀ l ∈ win5 (F := F), ∀ op ∈ l, Proc.devRef .tc b ∉ op.writes := by
  each_mem (each_mem (simp only [nullary_writes, unary_writes, binary_writes, ternary_writes, reshape_writes, Finset.mem_singleton]; exact devRef_ne_of_ne (ne_of_mem_args hb (by decide))))

theorem keeps (V : Valuation τ sig (Elt F)) : after (ops (F := F)) V (Proc.devRef .tc b) = V (Proc.devRef .tc b) :=
  after_of_forall_not_mem _ V (forall_mem_ops (win0_keeps b hb) (win1_keeps b hb) (win2_keeps b hb) (win3_keeps b hb) (win4_keeps b hb) (win5_keeps b hb))
end Keeps

theorem frame : Cert.frame_ReferenceIdeal := fun m g _ =>
  (θ_run (defs (F := Ideal)) _ _).mono (fun r h c =>
    have k : ∀ b ∈ argRefs, r.2.mem ((c.tc : Thread nD τ).loc b) = m ((c.tc : Thread nD τ).loc b) :=
      fun b hb => (h c b).trans (keeps (F := Ideal) b hb _)
    ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩)
    (run (F := Ideal) m g)

end Cert.ReferenceIdeal.RRun

end
-- ==== Proof.RStages.lean ====
import proofs.«430980_j44702019616883_2_alg».proof.Proof.ROps
import Idealize.ShloMosaic.Lib.Pipeline.Frame

set_option maxRecDepth 16384

noncomputable section

namespace Cert.ReferenceIdeal.RStages

open Cert.ReferenceIdeal Cert.ReferenceIdeal.Facts₀ Idealize.ShloMosaic Idealize.ShloMosaic.TcCoe Idealize.SL.Sem Idealize.ShloMosaic.StableHlo

variable {F : FTy → Type} [FloatOps F]

abbrev pre_W : List (Ref sig .tc) := [main_v0, main_v1, main_v2, main_v3, main_v4, main_v5, main_v6, main_v7]
-- A buffer outside the list of a stage's result buffers keeps its contents through the stage: every operation writes one buffer of the list.
theorem pre_keep (V : Valuation τ sig (Elt F)) (r : Ref sig .tc) (h : r ∉ pre_W) :
    after pre V (no_index (Proc.devRef .tc r)) = V (Proc.devRef .tc r) :=
  after_of_writes_sub pre V (by
    simp only [pre, List.cons_append, List.nil_append, List.Forall, nullary_writes, unary_writes, binary_writes, ternary_writes, reshape_writes,
    Finset.singleton_subset_iff, List.mem_toFinset, List.map_cons, List.mem_cons, true_or, or_true, and_self]) h

abbrev A1_W : List (Ref sig .tc) := [main_c, main_v8, main_v9, main_c_0, main_v10, main_v11, main_v12, main_v13, main_v14, main_cst, main_v15, main_v16, main_v17, main_v18, main_v19, main_v20, main_v21, main_v22, main_cst_1, main_v23, main_v24, main_v25, main_v26, main_v27, main_v28, main_cst_2, main_v29, main_v30]
theorem A1_keep (V : Valuation τ sig (Elt F)) (r : Ref sig .tc) (h : r ∉ A1_W) :
    after A1 V (no_index (Proc.devRef .tc r)) = V (Proc.devRef .tc r) :=
  after_of_writes_sub A1 V (by
    simp only [A1, List.cons_append, List.nil_append, List.Forall, nullary_writes, unary_writes, binary_writes, ternary_writes, reshape_writes,
    Finset.singleton_subset_iff, List.mem_toFinset, List.map_cons, List.mem_cons, true_or, or_true, and_self]) h

abbrev B1_W : List (Ref sig .tc) := [main_cst_3, main_v31, main_cst_4, main_v32, main_v33, main_c_5, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v35, main_v36, main_v37, main_v38, main_v39, main_v40, main_cst_6, main_v41, main_v42, main_v43, main_v44, main_v45, main_v46, main_v47, main_v48, main_v49]
theorem B1_keep (V : Valuation τ sig (Elt F)) (r : Ref sig .tc) (h : r ∉ B1_W) :
    after B1 V (no_index (Proc.devRef .tc r)) = V (Proc.devRef .tc r) :=
  after_of_writes_sub B1 V (by
    simp only [B1, B1a, B1b, B1c, B1d, List.cons_append, List.nil_append, List.Forall, nullary_writes, unary_writes, binary_writes, ternary_writes, reshape_writes,
    Finset.singleton_subset_iff, List.mem_toFinset, List.map_cons, List.mem_cons, true_or, or_true, and_self]) h

abbrev A2_W : List (Ref sig .tc) := [main_v50, main_v51, main_v52, main_v53, main_v54, main_v55, main_v56, main_v57, main_v58, main_v59, main_v60, main_v61, main_c_7, main_v62, main_v63, main_c_8, main_v64, main_v65, main_v66, main_v67, main_v68, main_cst_9, main_v69, main_v70, main_v71, main_v72, main_v73, main_v74, main_v75, main_v76, main_cst_10, main_v77, main_v78, main_v79, main_v80, main_v81, main_v82, main_cst_11, main_v83, main_v84]
theorem A2_keep (V : Valuation τ sig (Elt F)) (r : Ref sig .tc) (h : r ∉ A2_W) :
    after A2 V (no_index (Proc.devRef .tc r)) = V (Proc.devRef .tc r) :=
  after_of_writes_sub A2 V (by
    simp only [A2, A2a, A2b, List.cons_append, List.nil_append, List.Forall, nullary_writes, unary_writes, binary_writes, ternary_writes, reshape_writes,
    Finset.singleton_subset_iff, List.mem_toFinset, List.map_cons, List.mem_cons, true_or, or_true, and_self]) h

abbrev B2_W : List (Ref sig .tc) := [main_cst_12, main_v85, main_cst_13, main_v86, main_v87, main_c_14, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v89, main_v90, main_v91, main_v92, main_v93, main_v94, main_cst_15, main_v95, main_v96, main_v97, main_v98, main_v99, main_v100, main_v101, main_v102, main_v103]
theorem B2_keep (V : Valuation τ sig (Elt F)) (r : Ref sig .tc) (h : r ∉ B2_W) :
    after B2 V (no_index (Proc.devRef .tc r)) = V (Proc.devRef .tc r) :=
  after_of_writes_sub B2 V (by
    simp only [B2, B2a, B2b, B2c, B2d, B2e, List.cons_append, List.nil_append, List.Forall, nullary_writes, unary_writes, binary_writes, ternary_writes, reshape_writes,
    Finset.singleton_subset_iff, List.mem_toFinset, List.map_cons, List.mem_cons, true_or, or_true, and_self]) h

abbrev A3_W : List (Ref sig .tc) := [main_v104, main_v105, main_v106, main_v107, main_v108, main_v109, main_v110, main_v111, main_v112, main_v113, main_v114, main_v115, main_c_16, main_v116, main_v117, main_c_17, main_v118, main_v119, main_v120, main_v121, main_v122, main_cst_18, main_v123, main_v124, main_v125, main_v126, main_v127, main_v128, main_v129, main_v130, main_cst_19, main_v131, main_v132, main_v133, main_v134, main_v135, main_v136, main_cst_20, main_v137, main_v138]
theorem A3_keep (V : Valuation τ sig (Elt F)) (r : Ref sig .tc) (h : r ∉ A3_W) :
    after A3 V (no_index (Proc.devRef .tc r)) = V (Proc.devRef .tc r) :=
  after_of_writes_sub A3 V (by
    simp only [A3, List.cons_append, List.nil_append, List.Forall, nullary_writes, unary_writes, binary_writes, ternary_writes, reshape_writes,
    Finset.singleton_subset_iff, List.mem_toFinset, List.map_cons, List.mem_cons, true_or, or_true, and_self]) h

abbrev B3_W : List (Ref sig .tc) := [main_cst_21, main_v139, main_cst_22, main_v140, main_v141, main_c_23, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v143, main_v144, main_v145, main_v146, main_v147, main_v148, main_cst_24, main_v149, main_v150, main_v151, main_v152, main_v153, main_v154, main_v155, main_v156, main_v157]
theorem B3_keep (V : Valuation τ sig (Elt F)) (r : Ref sig .tc) (h : r ∉ B3_W) :
    after B3 V (no_index (Proc.devRef .tc r)) = V (Proc.devRef .tc r) :=
  after_of_writes_sub B3 V (by
    simp only [B3, B3a, B3b, B3c, B3d, B3e, List.cons_append, List.nil_append, List.Forall, nullary_writes, unary_writes, binary_writes, ternary_writes, reshape_writes,
    Finset.singleton_subset_iff, List.mem_toFinset, List.map_cons, List.mem_cons, true_or, or_true, and_self]) h

abbrev A4_W : List (Ref sig .tc) := [main_v158, main_v159, main_v160, main_v161, main_v162, main_v163, main_v164, main_v165, main_v166, main_v167, main_v168, main_v169, main_c_25, main_v170, main_v171, main_c_26, main_v172, main_v173, main_v174, main_v175, main_v176, main_cst_27, main_v177, main_v178, main_v179, main_v180, main_v181, main_v182, main_v183, main_v184, main_cst_28, main_v185, main_v186, main_v187, main_v188, main_v189, main_v190, main_cst_29, main_v191, main_v192]
theorem A4_keep (V : Valuation τ sig (Elt F)) (r : Ref sig .tc) (h : r ∉ A4_W) :
    after A4 V (no_index (Proc.devRef .tc r)) = V (Proc.devRef .tc r) :=
  after_of_writes_sub A4 V (by
    simp only [A4, List.cons_append, List.nil_append, List.Forall, nullary_writes, unary_writes, binary_writes, ternary_writes, reshape_writes,
    Finset.singleton_subset_iff, List.mem_toFinset, List.map_cons, List.mem_cons, true_or, or_true, and_self]) h

abbrev B4_W : List (Ref sig .tc) := [main_cst_30, main_v193, main_cst_31, main_v194, main_v195, main_c_32, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v197, main_v198, main_v199, main_v200, main_v201, main_v202, main_cst_33, main_v203, main_v204, main_v205, main_v206, main_v207, main_v208, main_v209, main_v210, main_v211]
theorem B4_keep (V : Valuation τ sig (Elt F)) (r : Ref sig .tc) (h : r ∉ B4_W) :
    after B4 V (no_index (Proc.devRef .tc r)) = V (Proc.devRef .tc r) :=
  after_of_writes_sub B4 V (by
    simp only [B4, B4a, B4b, B4c, B4d, B4e, List.cons_append, List.nil_append, List.Forall, nullary_writes, unary_writes, binary_writes, ternary_writes, reshape_writes,
    Finset.singleton_subset_iff, List.mem_toFinset, List.map_cons, List.mem_cons, true_or, or_true, and_self]) h

abbrev A5_W : List (Ref sig .tc) := [main_v212, main_v213, main_v214, main_v215, main_v216, main_v217, main_v218, main_v219, main_v220, main_v221, main_v222, main_v223, main_c_34, main_v224, main_v225, main_c_35, main_v226, main_v227, main_v228, main_v229, main_v230, main_cst_36, main_v231, main_v232, main_v233, main_v234, main_v235, main_v236, main_v237, main_v238, main_cst_37, main_v239, main_v240, main_v241, main_v242, main_v243, main_v244, main_cst_38, main_v245, main_v246]
theorem A5_keep (V : Valuation τ sig (Elt F)) (r : Ref sig .tc) (h : r ∉ A5_W) :
    after A5 V (no_index (Proc.devRef .tc r)) = V (Proc.devRef .tc r) :=
  after_of_writes_sub A5 V (by
    simp only [A5, List.cons_append, List.nil_append, List.Forall, nullary_writes, unary_writes, binary_writes, ternary_writes, reshape_writes,
    Finset.singleton_subset_iff, List.mem_toFinset, List.map_cons, List.mem_cons, true_or, or_true, and_self]) h

abbrev B5_W : List (Ref sig .tc) := [main_cst_39, main_v247, main_cst_40, main_v248, main_v249, main_c_41, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v251, main_v252, main_v253, main_v254, main_v255, main_v256, main_cst_42, main_v257, main_v258, main_v259, main_v260, main_v261, main_v262, main_v263, main_v264, main_v265]
theorem B5_keep (V : Valuation τ sig (Elt F)) (r : Ref sig .tc) (h : r ∉ B5_W) :
    after B5 V (no_index (Proc.devRef .tc r)) = V (Proc.devRef .tc r) :=
  after_of_writes_sub B5 V (by
    simp only [B5, B5a, B5b, B5c, B5d, B5e, List.cons_append, List.nil_append, List.Forall, nullary_writes, unary_writes, binary_writes, ternary_writes, reshape_writes,
    Finset.singleton_subset_iff, List.mem_toFinset, List.map_cons, List.mem_cons, true_or, or_true, and_self]) h

abbrev poolL_W : List (Ref sig .tc) := [main_cst_43, main_v266, main_cst_44, main_v267, main_v268, main_v269, main_cst_45, main_v270, main_v271, main_v272, main_cst_46, main_v273, main_v274, main_v275, main_v276, main_v277]
theorem poolL_keep (V : Valuation τ sig (Elt F)) (r : Ref sig .tc) (h : r ∉ poolL_W) :
    after poolL V (no_index (Proc.devRef .tc r)) = V (Proc.devRef .tc r) :=
  after_of_writes_sub poolL V (by
    simp only [poolL, List.cons_append, List.nil_append, List.Forall, nullary_writes, unary_writes, binary_writes, ternary_writes, reshape_writes,
    Finset.singleton_subset_iff, List.mem_toFinset, List.map_cons, List.mem_cons, true_or, or_true, and_self]) h

abbrev readL_W : List (Ref sig .tc) := [main_v278, main_v279, main_v280, main_v281, main_cst_47, main_v282, main_v283, main_v284, main_v285, main_v286, main_v287, main_call5.cst.ref, main_call5.v0.ref, main_call5.cst_0.ref, main_call5.v1.ref, main_call5.v2.ref, main_call5.v3.ref, main_call5.v4.ref, main_call5.v5.ref, main_call5.v6.ref, main_call5.cst_1.ref, main_call5.v7.ref, main_call5.v8.ref, main_call5.v9.ref, main_call5.v10.ref, main_call5.v11.ref]
theorem readL_keep (V : Valuation τ sig (Elt F)) (r : Ref sig .tc) (h : r ∉ readL_W) :
    after readL V (no_index (Proc.devRef .tc r)) = V (Proc.devRef .tc r) :=
  after_of_writes_sub readL V (by
    simp only [readL, readLa, readLb, List.cons_append, List.nil_append, List.Forall, nullary_writes, unary_writes, binary_writes, ternary_writes, reshape_writes,
    Finset.singleton_subset_iff, List.mem_toFinset, List.map_cons, List.mem_cons, true_or, or_true, and_self]) h

end Cert.ReferenceIdeal.RStages

end
-- ==== Proof.RLayer2.lean ====
import proofs.«430980_j44702019616883_2_alg».proof.Proof.RStages
import proofs.«430980_j44702019616883_2_alg».proof.Proof.Spec

set_option maxRecDepth 16384

noncomputable section

namespace Cert.ReferenceIdeal.RValue

open Cert.ReferenceIdeal Cert.ReferenceIdeal.Facts₀ Idealize.ShloMosaic Idealize.ShloMosaic.TcCoe Idealize.SL.Sem Idealize.ShloMosaic.StableHlo
open Cert.ReferenceIdeal.RStages Cert.Gin

variable {F : FTy → Type} [FloatOps F]

theorem A2_z (X : Valuation τ sig (Elt F)) :
    after A2 X (no_index (Proc.devRef .tc main_v84))
      = Spec.mlpB (X (Proc.devRef .tc main_v49)) (Spec.aggB (X (Proc.devRef .tc main_v49)) (Spec.idx (X (Proc.devRef .tc main_v1))) (X (Proc.devRef .tc main_v3)))
          (Spec.wa1 (X (Proc.devRef .tc main_arg7))) (Spec.row32 (Spec.ba1 (X (Proc.devRef .tc main_arg8))))
          (Spec.wb1 (X (Proc.devRef .tc main_arg9))) (Spec.row32 (Spec.bb1 (X (Proc.devRef .tc main_arg10)))) := by
  simp only [A2, A2a, A2b, List.cons_append, List.nil_append]
  after_results_simp
  rfl

theorem A2_g (X : Valuation τ sig (Elt F)) :
    after A2 X (no_index (Proc.devRef .tc main_v59)) = Spec.g1 (X (Proc.devRef .tc main_arg11)) := by
  simp only [A2, A2a, A2b, List.cons_append, List.nil_append]
  after_results_simp
  rfl
theorem A2_be (X : Valuation τ sig (Elt F)) :
    after A2 X (no_index (Proc.devRef .tc main_v61)) = Spec.be1 (X (Proc.devRef .tc main_arg12)) := by
  simp only [A2, A2a, A2b, List.cons_append, List.nil_append]
  after_results_simp
  rfl

theorem B2_out (X : Valuation τ sig (Elt F)) :
    after B2 X (no_index (Proc.devRef .tc main_v103))
      = Spec.bnApply (X (Proc.devRef .tc main_v84)) (Spec.mean (X (Proc.devRef .tc main_v84))) (Spec.var (X (Proc.devRef .tc main_v84))) (X (Proc.devRef .tc main_v59)) (X (Proc.devRef .tc main_v61)) := by
  simp only [B2, B2a, B2b, B2c, B2d, B2e, List.cons_append, List.nil_append]
  after_results_simp
  rfl

theorem L2_out (W : Valuation τ sig (Elt F)) :
    after B2 (after A2 W) (no_index (Proc.devRef .tc main_v103))
      = Spec.layerB (W (Proc.devRef .tc main_v49)) (W (Proc.devRef .tc main_v1)) (W (Proc.devRef .tc main_v3))
          (Spec.wa1 (W (Proc.devRef .tc main_arg7))) (Spec.ba1 (W (Proc.devRef .tc main_arg8))) (Spec.wb1 (W (Proc.devRef .tc main_arg9))) (Spec.bb1 (W (Proc.devRef .tc main_arg10)))
          (Spec.g1 (W (Proc.devRef .tc main_arg11))) (Spec.be1 (W (Proc.devRef .tc main_arg12))) := by
  rw [B2_out, A2_z, A2_g, A2_be]
  rfl

end Cert.ReferenceIdeal.RValue

end
-- ==== Proof.RLayer3.lean ====
import proofs.«430980_j44702019616883_2_alg».proof.Proof.RStages
import proofs.«430980_j44702019616883_2_alg».proof.Proof.Spec

set_option maxRecDepth 16384

noncomputable section

namespace Cert.ReferenceIdeal.RValue

open Cert.ReferenceIdeal Cert.ReferenceIdeal.Facts₀ Idealize.ShloMosaic Idealize.ShloMosaic.TcCoe Idealize.SL.Sem Idealize.ShloMosaic.StableHlo
open Cert.ReferenceIdeal.RStages Cert.Gin

variable {F : FTy → Type} [FloatOps F]

theorem A3_z (X : Valuation τ sig (Elt F)) :
    after A3 X (no_index (Proc.devRef .tc main_v138))
      = Spec.mlpB (X (Proc.devRef .tc main_v103)) (Spec.aggB (X (Proc.devRef .tc main_v103)) (Spec.idx (X (Proc.devRef .tc main_v1))) (X (Proc.devRef .tc main_v3)))
          (Spec.wa2 (X (Proc.devRef .tc main_arg7))) (Spec.row32 (Spec.ba2 (X (Proc.devRef .tc main_arg8))))
          (Spec.wb2 (X (Proc.devRef .tc main_arg9))) (Spec.row32 (Spec.bb2 (X (Proc.devRef .tc main_arg10)))) := by
  unfold A3
  after_results_simp
  rfl

theorem A3_g (X : Valuation τ sig (Elt F)) :
    after A3 X (no_index (Proc.devRef .tc main_v113)) = Spec.g2 (X (Proc.devRef .tc main_arg11)) := by
  unfold A3
  after_results_simp
  rfl
theorem A3_be (X : Valuation τ sig (Elt F)) :
    after A3 X (no_index (Proc.devRef .tc main_v115)) = Spec.be2 (X (Proc.devRef .tc main_arg12)) := by
  unfold A3
  after_results_simp
  rfl

theorem B3_out (X : Valuation τ sig (Elt F)) :
    after B3 X (no_index (Proc.devRef .tc main_v157))
      = Spec.bnApply (X (Proc.devRef .tc main_v138)) (Spec.mean (X (Proc.devRef .tc main_v138))) (Spec.var (X (Proc.devRef .tc main_v138))) (X (Proc.devRef .tc main_v113)) (X (Proc.devRef .tc main_v115)) := by
  simp only [B3, B3a, B3b, B3c, B3d, B3e, List.cons_append, List.nil_append]
  after_results_simp
  rfl

theorem L3_out (W : Valuation τ sig (Elt F)) :
    after B3 (after A3 W) (no_index (Proc.devRef .tc main_v157))
      = Spec.layerB (W (Proc.devRef .tc main_v103)) (W (Proc.devRef .tc main_v1)) (W (Proc.devRef .tc main_v3))
          (Spec.wa2 (W (Proc.devRef .tc main_arg7))) (Spec.ba2 (W (Proc.devRef .tc main_arg8))) (Spec.wb2 (W (Proc.devRef .tc main_arg9))) (Spec.bb2 (W (Proc.devRef .tc main_arg10)))
          (Spec.g2 (W (Proc.devRef .tc main_arg11))) (Spec.be2 (W (Proc.devRef .tc main_arg12))) := by
  rw [B3_out, A3_z, A3_g, A3_be]
  rfl

end Cert.ReferenceIdeal.RValue

end
-- ==== Proof.RLayer4.lean ====
import proofs.«430980_j44702019616883_2_alg».proof.Proof.RStages
import proofs.«430980_j44702019616883_2_alg».proof.Proof.Spec

set_option maxRecDepth 16384

noncomputable section

namespace Cert.ReferenceIdeal.RValue

open Cert.ReferenceIdeal Cert.ReferenceIdeal.Facts₀ Idealize.ShloMosaic Idealize.ShloMosaic.TcCoe Idealize.SL.Sem Idealize.ShloMosaic.StableHlo
open Cert.ReferenceIdeal.RStages Cert.Gin

variable {F : FTy → Type} [FloatOps F]

theorem A4_z (X : Valuation τ sig (Elt F)) :
    after A4 X (no_index (Proc.devRef .tc main_v192))
      = Spec.mlpB (X (Proc.devRef .tc main_v157)) (Spec.aggB (X (Proc.devRef .tc main_v157)) (Spec.idx (X (Proc.devRef .tc main_v1))) (X (Proc.devRef .tc main_v3)))
          (Spec.wa3 (X (Proc.devRef .tc main_arg7))) (Spec.row32 (Spec.ba3 (X (Proc.devRef .tc main_arg8))))
          (Spec.wb3 (X (Proc.devRef .tc main_arg9))) (Spec.row32 (Spec.bb3 (X (Proc.devRef .tc main_arg10)))) := by
  unfold A4
  after_results_simp
  rfl

theorem A4_g (X : Valuation τ sig (Elt F)) :
    after A4 X (no_index (Proc.devRef .tc main_v167)) = Spec.g3 (X (Proc.devRef .tc main_arg11)) := by
  unfold A4
  after_results_simp
  rfl
theorem A4_be (X : Valuation τ sig (Elt F)) :
    after A4 X (no_index (Proc.devRef .tc main_v169)) = Spec.be3 (X (Proc.devRef .tc main_arg12)) := by
  unfold A4
  after_results_simp
  rfl

theorem B4_out (X : Valuation τ sig (Elt F)) :
    after B4 X (no_index (Proc.devRef .tc main_v211))
      = Spec.bnApply (X (Proc.devRef .tc main_v192)) (Spec.mean (X (Proc.devRef .tc main_v192))) (Spec.var (X (Proc.devRef .tc main_v192))) (X (Proc.devRef .tc main_v167)) (X (Proc.devRef .tc main_v169)) := by
  simp only [B4, B4a, B4b, B4c, B4d, B4e, List.cons_append, List.nil_append]
  after_results_simp
  rfl

theorem L4_out (W : Valuation τ sig (Elt F)) :
    after B4 (after A4 W) (no_index (Proc.devRef .tc main_v211))
      = Spec.layerB (W (Proc.devRef .tc main_v157)) (W (Proc.devRef .tc main_v1)) (W (Proc.devRef .tc main_v3))
          (Spec.wa3 (W (Proc.devRef .tc main_arg7))) (Spec.ba3 (W (Proc.devRef .tc main_arg8))) (Spec.wb3 (W (Proc.devRef .tc main_arg9))) (Spec.bb3 (W (Proc.devRef .tc main_arg10)))
          (Spec.g3 (W (Proc.devRef .tc main_arg11))) (Spec.be3 (W (Proc.devRef .tc main_arg12))) := by
  rw [B4_out, A4_z, A4_g, A4_be]
  rfl

end Cert.ReferenceIdeal.RValue

end
-- ==== Proof.RLayer5.lean ====
import proofs.«430980_j44702019616883_2_alg».proof.Proof.RStages
import proofs.«430980_j44702019616883_2_alg».proof.Proof.Spec

set_option maxRecDepth 16384

noncomputable section

namespace Cert.ReferenceIdeal.RValue

open Cert.ReferenceIdeal Cert.ReferenceIdeal.Facts₀ Idealize.ShloMosaic Idealize.ShloMosaic.TcCoe Idealize.SL.Sem Idealize.ShloMosaic.StableHlo
open Cert.ReferenceIdeal.RStages Cert.Gin

variable {F : FTy → Type} [FloatOps F]

theorem A5_z (X : Valuation τ sig (Elt F)) :
    after A5 X (no_index (Proc.devRef .tc main_v246))
      = Spec.mlpB (X (Proc.devRef .tc main_v211)) (Spec.aggB (X (Proc.devRef .tc main_v211)) (Spec.idx (X (Proc.devRef .tc main_v1))) (X (Proc.devRef .tc main_v3)))
          (Spec.wa4 (X (Proc.devRef .tc main_arg7))) (Spec.row32 (Spec.ba4 (X (Proc.devRef .tc main_arg8))))
          (Spec.wb4 (X (Proc.devRef .tc main_arg9))) (Spec.row32 (Spec.bb4 (X (Proc.devRef .tc main_arg10)))) := by
  unfold A5
  after_results_simp
  rfl

theorem A5_g (X : Valuation τ sig (Elt F)) :
    after A5 X (no_index (Proc.devRef .tc main_v221)) = Spec.g4 (X (Proc.devRef .tc main_arg11)) := by
  unfold A5
  after_results_simp
  rfl
theorem A5_be (X : Valuation τ sig (Elt F)) :
    after A5 X (no_index (Proc.devRef .tc main_v223)) = Spec.be4 (X (Proc.devRef .tc main_arg12)) := by
  unfold A5
  after_results_simp
  rfl

theorem B5_out (X : Valuation τ sig (Elt F)) :
    after B5 X (no_index (Proc.devRef .tc main_v265))
      = Spec.bnApply (X (Proc.devRef .tc main_v246)) (Spec.mean (X (Proc.devRef .tc main_v246))) (Spec.var (X (Proc.devRef .tc main_v246))) (X (Proc.devRef .tc main_v221)) (X (Proc.devRef .tc main_v223)) := by
  simp only [B5, B5a, B5b, B5c, B5d, B5e, List.cons_append, List.nil_append]
  after_results_simp
  rfl

theorem L5_out (W : Valuation τ sig (Elt F)) :
    after B5 (after A5 W) (no_index (Proc.devRef .tc main_v265))
      = Spec.layerB (W (Proc.devRef .tc main_v211)) (W (Proc.devRef .tc main_v1)) (W (Proc.devRef .tc main_v3))
          (Spec.wa4 (W (Proc.devRef .tc main_arg7))) (Spec.ba4 (W (Proc.devRef .tc main_arg8))) (Spec.wb4 (W (Proc.devRef .tc main_arg9))) (Spec.bb4 (W (Proc.devRef .tc main_arg10)))
          (Spec.g4 (W (Proc.devRef .tc main_arg11))) (Spec.be4 (W (Proc.devRef .tc main_arg12))) := by
  rw [B5_out, A5_z, A5_g, A5_be]
  rfl

end Cert.ReferenceIdeal.RValue

end
-- ==== Proof.RValue.lean ====
import proofs.«430980_j44702019616883_2_alg».proof.Proof.ROps
import proofs.«430980_j44702019616883_2_alg».proof.Proof.Spec
import proofs.«430980_j44702019616883_2_alg».proof.Proof.RStages
import proofs.«430980_j44702019616883_2_alg».proof.Proof.RLayer2
import proofs.«430980_j44702019616883_2_alg».proof.Proof.RLayer3
import proofs.«430980_j44702019616883_2_alg».proof.Proof.RLayer4
import proofs.«430980_j44702019616883_2_alg».proof.Proof.RLayer5
import Idealize.ShloMosaic.Lib.StableHlo.Run
import Idealize.ShloMosaic.Lib.Pipeline.Frame

set_option maxRecDepth 16384

noncomputable section

namespace Cert.ReferenceIdeal.RValue

open Cert.ReferenceIdeal Cert.ReferenceIdeal.Facts₀ Idealize.ShloMosaic Idealize.ShloMosaic.TcCoe Idealize.SL.Sem Idealize.ShloMosaic.StableHlo
open Cert.ReferenceIdeal.RStages Cert.Gin

variable {F : FTy → Type} [FloatOps F]

theorem pre_src (X : Valuation τ sig (Elt F)) :
    after pre X (no_index (Proc.devRef .tc main_v1)) = Spec.src (X (Proc.devRef .tc main_arg1)) := by
  unfold pre
  after_results_simp
  rfl

theorem pre_dst (X : Valuation τ sig (Elt F)) :
    after pre X (no_index (Proc.devRef .tc main_v3)) = Spec.dst (X (Proc.devRef .tc main_arg1)) := by
  unfold pre
  after_results_simp
  rfl

theorem pre_g (X : Valuation τ sig (Elt F)) :
    after pre X (no_index (Proc.devRef .tc main_v5)) = Spec.g0 (X (Proc.devRef .tc main_arg11)) := by
  unfold pre
  after_results_simp
  rfl
theorem pre_be (X : Valuation τ sig (Elt F)) :
    after pre X (no_index (Proc.devRef .tc main_v7)) = Spec.be0 (X (Proc.devRef .tc main_arg12)) := by
  unfold pre
  after_results_simp
  rfl

theorem A1_z (X : Valuation τ sig (Elt F)) :
    after A1 X (no_index (Proc.devRef .tc main_v30))
      = Spec.mlpA (X (Proc.devRef .tc main_arg0)) (Spec.aggA (X (Proc.devRef .tc main_arg0)) (Spec.idx (X (Proc.devRef .tc main_v1))) (X (Proc.devRef .tc main_v3)))
          (X (Proc.devRef .tc main_arg3)) (Spec.row32 (X (Proc.devRef .tc main_arg4))) (X (Proc.devRef .tc main_arg5)) (Spec.row32 (X (Proc.devRef .tc main_arg6))) := by
  unfold A1
  after_results_simp
  rfl

theorem B1_out (X : Valuation τ sig (Elt F)) :
    after B1 X (no_index (Proc.devRef .tc main_v49))
      = Spec.bnApply (X (Proc.devRef .tc main_v30)) (Spec.mean (X (Proc.devRef .tc main_v30))) (Spec.var (X (Proc.devRef .tc main_v30))) (X (Proc.devRef .tc main_v5)) (X (Proc.devRef .tc main_v7)) := by
  simp only [B1, B1a, B1b, B1c, B1d, List.cons_append, List.nil_append]
  after_results_simp
  rfl

theorem L1_out (W : Valuation τ sig (Elt F)) :
    after B1 (after A1 W) (no_index (Proc.devRef .tc main_v49))
      = Spec.layerA (W (Proc.devRef .tc main_arg0)) (W (Proc.devRef .tc main_v1)) (W (Proc.devRef .tc main_v3)) (W (Proc.devRef .tc main_arg3)) (W (Proc.devRef .tc main_arg4)) (W (Proc.devRef .tc main_arg5)) (W (Proc.devRef .tc main_arg6))
          (W (Proc.devRef .tc main_v5)) (W (Proc.devRef .tc main_v7)) := by
  rw [B1_out, A1_z, A1_keep W main_v5 (by decide), A1_keep W main_v7 (by decide)]
  rfl

theorem pool_out (X : Valuation τ sig (Elt F)) :
    after poolL X (no_index (Proc.devRef .tc main_v277)) = Spec.pool (X (Proc.devRef .tc main_v265)) (X (Proc.devRef .tc main_arg2)) := by
  unfold poolL
  after_results_simp
  rfl

theorem read_out (X : Valuation τ sig (Elt F)) :
    after readL X (no_index (Proc.devRef .tc main_v288))
      = Spec.readout (X (Proc.devRef .tc main_v277)) (X (Proc.devRef .tc main_arg13)) (Spec.row32 (X (Proc.devRef .tc main_arg14))) (X (Proc.devRef .tc main_arg15)) (Spec.row10 (X (Proc.devRef .tc main_arg16))) := by
  simp only [readL, readLa, readLb, List.cons_append, List.nil_append]
  after_results_simp
  rfl

theorem result (V : Valuation τ sig (Elt F)) :
    after (ops (F := F)) V (Proc.devRef .tc main_v288)
      = Spec.net (V (Proc.devRef .tc main_arg0)) (V (Proc.devRef .tc main_arg1)) (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15)) (V (Proc.devRef .tc main_arg16)) := by
  simp only [ops, after_append]
  simp (disch := decide) only [read_out, pool_out, L5_out, L4_out, L3_out, L2_out, L1_out, pre_src, pre_dst, pre_g, pre_be,
    pre_keep, A1_keep, B1_keep, A2_keep, B2_keep, A3_keep, B3_keep, A4_keep, B4_keep, A5_keep, B5_keep, poolL_keep, readL_keep]
  rfl

end Cert.ReferenceIdeal.RValue

end
-- ==== Proof.lean ====
import proofs.«430980_j44702019616883_2_alg».proof.Defs
import proofs.«430980_j44702019616883_2_alg».proof.Proof.Gen.Kernel
import proofs.«430980_j44702019616883_2_alg».proof.Proof.Gen.Kernel.Skeleton
import proofs.«430980_j44702019616883_2_alg».proof.Proof.Gen.Kernel.Launch
import proofs.«430980_j44702019616883_2_alg».proof.Proof.Gen.Kernel.Points
import proofs.«430980_j44702019616883_2_alg».proof.Proof.Gen.Kernel.Frame
import proofs.«430980_j44702019616883_2_alg».proof.Proof.Gen.KernelIdeal
import proofs.«430980_j44702019616883_2_alg».proof.Proof.Gen.KernelIdeal.Skeleton
import proofs.«430980_j44702019616883_2_alg».proof.Proof.Gen.KernelIdeal.Launch
import proofs.«430980_j44702019616883_2_alg».proof.Proof.Gen.KernelIdeal.Points
import proofs.«430980_j44702019616883_2_alg».proof.Proof.Gen.KernelIdeal.Frame
import proofs.«430980_j44702019616883_2_alg».proof.Proof.Gen.ReferenceIdeal
import proofs.«430980_j44702019616883_2_alg».proof.Proof.Gen.Pre_finite_inputs
import proofs.«430980_j44702019616883_2_alg».proof.Proof.KRun
import proofs.«430980_j44702019616883_2_alg».proof.Proof.KValue
import proofs.«430980_j44702019616883_2_alg».proof.Proof.RRun
import proofs.«430980_j44702019616883_2_alg».proof.Proof.RValue
import Idealize.ShloMosaic.Adequacy
import Idealize.ShloMosaic.Init

set_option maxRecDepth 16384

noncomputable section

namespace Cert.Proof

open Idealize.ShloMosaic Idealize.SL.Sem

-- Both runs end with the network function of the arguments in their result buffers: the kernel's final contents read back layer by layer, the reference's fold read stage by stage; the arguments agree.
theorem algebraic : Cert.algebraic_KernelIdeal_ReferenceIdeal := by
  intro m ρ m' ρ' hpre hagree
  refine ⟨fun c => Cert.KernelIdeal.Gen.W42 (F := Ideal) m ρ c (Proc.devRef .tc Cert.KernelIdeal.main_v145), Cert.KernelIdeal.KRun.run (F := Ideal) m ρ, ?_⟩
  refine (θ_run (Cert.ReferenceIdeal.defs (F := Ideal)) _ _).mono (fun r h c => ?_) (Cert.ReferenceIdeal.RRun.run (F := Ideal) m' ρ')
  have k : ∀ b ∈ Cert.ReferenceIdeal.RRun.argRefs, r.2.mem ((c.tc : Thread Cert.ReferenceIdeal.nD Cert.ReferenceIdeal.τ).loc b) = m' ((c.tc : Thread Cert.ReferenceIdeal.nD Cert.ReferenceIdeal.τ).loc b) :=
    fun b hb => (h c b).trans (Cert.ReferenceIdeal.RRun.keeps (F := Ideal) b hb _)
  refine ⟨?_, k Cert.ReferenceIdeal.main_arg0 (by decide),
    k Cert.ReferenceIdeal.main_arg1 (by decide),
    k Cert.ReferenceIdeal.main_arg2 (by decide),
    k Cert.ReferenceIdeal.main_arg3 (by decide),
    k Cert.ReferenceIdeal.main_arg4 (by decide),
    k Cert.ReferenceIdeal.main_arg5 (by decide),
    k Cert.ReferenceIdeal.main_arg6 (by decide),
    k Cert.ReferenceIdeal.main_arg7 (by decide),
    k Cert.ReferenceIdeal.main_arg8 (by decide),
    k Cert.ReferenceIdeal.main_arg9 (by decide),
    k Cert.ReferenceIdeal.main_arg10 (by decide),
    k Cert.ReferenceIdeal.main_arg11 (by decide),
    k Cert.ReferenceIdeal.main_arg12 (by decide),
    k Cert.ReferenceIdeal.main_arg13 (by decide),
    k Cert.ReferenceIdeal.main_arg14 (by decide),
    k Cert.ReferenceIdeal.main_arg15 (by decide),
    k Cert.ReferenceIdeal.main_arg16 (by decide)⟩
  obtain ⟨e0, e1, e2, e3, e4, e5, e6, e7, e8, e9, e10, e11, e12, e13, e14, e15, e16⟩ := hagree c
  show r.2.mem ((c.tc : Thread Cert.ReferenceIdeal.nD Cert.ReferenceIdeal.τ).loc Cert.ReferenceIdeal.main_v288) = Cert.KernelIdeal.Gen.W42 (F := Ideal) m ρ c (Proc.devRef .tc Cert.KernelIdeal.main_v145)
  rw [h c Cert.ReferenceIdeal.main_v288, Cert.ReferenceIdeal.RValue.result, Cert.KernelIdeal.KValue.value m ρ c (Cert.Gin.PreSrc.src_inRange m hpre c),
    ← e0, ← e1, ← e2, ← e3, ← e4, ← e5, ← e6, ← e7, ← e8, ← e9, ← e10, ← e11, ← e12, ← e13, ← e14, ← e15, ← e16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, Cert.ReferenceIdeal.RRun.frame, trivial, algebraic⟩

end Cert.Proof

end
